-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 50000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S1 : Shape := ⟨1, ![1]⟩
abbrev S1x1 : Shape := ⟨2, ![1, 1]⟩
abbrev S850000x128 : Shape := ⟨2, ![850000, 128]⟩
abbrev S1x128 : Shape := ⟨2, ![1, 128]⟩
abbrev S50000x1x128 : Shape := ⟨3, ![50000, 1, 128]⟩
abbrev S50000x3x128 : Shape := ⟨3, ![50000, 3, 128]⟩

abbrev nBuf : Space → Nat
  | .hbm => 151
  | .vmem => 26
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S50000x128, .f32⟩
  | 49 => ⟨S850000x1, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S1, .i32⟩
  | 59 => ⟨S_, .i32⟩
  | 60 => ⟨S850000x1, .i32⟩
  | 61 => ⟨S850000x1, .i1⟩
  | 62 => ⟨S1x1, .i32⟩
  | 63 => ⟨S850000x1, .i32⟩
  | 64 => ⟨S850000x1, .i1⟩
  | 65 => ⟨S850000x1, .i1⟩
  | 66 => ⟨S_, .i1⟩
  | 67 => ⟨S850000, .i1⟩
  | 68 => ⟨S850000x128, .f32⟩
  | 69 => ⟨S850000x128, .i1⟩
  | 70 => ⟨S_, .f32⟩
  | 71 => ⟨S850000x128, .f32⟩
  | 72 => ⟨S850000x128, .f32⟩
  | 73 => ⟨S850000x128, .f32⟩
  | 74 => ⟨S850000x128, .f32⟩
  | 75 => ⟨S_, .f32⟩
  | 76 => ⟨S50000x128, .f32⟩
  | 77 => ⟨S850000x1, .i32⟩
  | 78 => ⟨S50000x128, .f32⟩
  | 79 => ⟨S1x128, .f32⟩
  | 80 => ⟨S50000x128, .f32⟩
  | 81 => ⟨S50000x128, .f32⟩
  | 82 => ⟨S850000x1, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S1, .i32⟩
  | 92 => ⟨S_, .i32⟩
  | 93 => ⟨S850000x1, .i32⟩
  | 94 => ⟨S850000x1, .i1⟩
  | 95 => ⟨S1x1, .i32⟩
  | 96 => ⟨S850000x1, .i32⟩
  | 97 => ⟨S850000x1, .i1⟩
  | 98 => ⟨S850000x1, .i1⟩
  | 99 => ⟨S_, .i1⟩
  | 100 => ⟨S850000, .i1⟩
  | 101 => ⟨S850000x128, .f32⟩
  | 102 => ⟨S850000x128, .i1⟩
  | 103 => ⟨S_, .f32⟩
  | 104 => ⟨S850000x128, .f32⟩
  | 105 => ⟨S850000x128, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S850000x1, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S1, .i32⟩
  | 125 => ⟨S_, .i32⟩
  | 126 => ⟨S850000x1, .i32⟩
  | 127 => ⟨S850000x1, .i1⟩
  | _ => ⟨S50000x128, .f32⟩

abbrev hbmTy0_1 (i : Nat) : BufTy := match i % 128 with
  | 0 => ⟨S1x1, .i32⟩
  | 1 => ⟨S850000x1, .i32⟩
  | 2 => ⟨S850000x1, .i1⟩
  | 3 => ⟨S850000x1, .i1⟩
  | 4 => ⟨S_, .i1⟩
  | 5 => ⟨S850000, .i1⟩
  | 6 => ⟨S850000x128, .f32⟩
  | 7 => ⟨S850000x128, .i1⟩
  | 8 => ⟨S_, .f32⟩
  | 9 => ⟨S850000x128, .f32⟩
  | 10 => ⟨S850000x128, .f32⟩
  | 11 => ⟨S850000x128, .f32⟩
  | 12 => ⟨S850000x128, .f32⟩
  | 13 => ⟨S_, .f32⟩
  | 14 => ⟨S50000x128, .f32⟩
  | 15 => ⟨S850000x1, .i32⟩
  | 16 => ⟨S50000x128, .f32⟩
  | 17 => ⟨S1x128, .f32⟩
  | 18 => ⟨S50000x128, .f32⟩
  | 19 => ⟨S50000x1x128, .f32⟩
  | 20 => ⟨S50000x1x128, .f32⟩
  | 21 => ⟨S50000x1x128, .f32⟩
  | 22 => ⟨S50000x3x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_6 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39_0 : Ref sig .tc := ⟨.hbm, 80, rfl⟩
abbrev main_v39_1 : Ref sig .tc := ⟨.hbm, 81, rfl⟩
abbrev main_v40 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_7 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48_0 : Ref sig .tc := ⟨.hbm, 113, rfl⟩
abbrev main_v48_1 : Ref sig .tc := ⟨.hbm, 114, rfl⟩
abbrev main_v49 : Ref sig .tc := ⟨.hbm, 115, rfl⟩
abbrev main_call3_c : Ref sig .tc := ⟨.hbm, 116, rfl⟩
abbrev main_call3_v0 : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_c_1 : Ref sig .tc := ⟨.hbm, 124, rfl⟩
abbrev main_call3_c_2 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_c_3 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_call3_cst : Ref sig .tc := ⟨.hbm, 136, rfl⟩
abbrev main_call3_v15 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_cst_8 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x128_0 : S850000.BroadcastsInDim S850000x128 (![0] : Fin 1 → Fin S850000x128.rank)
  bcast_S_S850000x128 : S_.BroadcastsInDim S850000x128 (![] : Fin 0 → Fin S850000x128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S50000x128_S50000x1x128_0_2 : S50000x128.BroadcastsInDim S50000x1x128 (![0, 2] : Fin 2 → Fin S50000x1x128.rank)
  concatenates_S50000x1x128_S50000x1x128_S50000x1x128_S50000x3x128_d1 : Shape.Concatenates [S50000x1x128, S50000x1x128, S50000x1x128] S50000x3x128 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v48_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1x128 : Shape := ⟨3, ![50000, 1, 128]⟩
abbrev S50000x3x128 : Shape := ⟨3, ![50000, 3, 128]⟩

abbrev nBuf : Space → Nat
  | .hbm => 115
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S850000x1, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S850000x1, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .f32⟩
  | .hbm, ⟨101, _⟩ => ⟨S850000x128, .f32⟩
  | .hbm, ⟨102, _⟩ => ⟨S850000x128, .f32⟩
  | .hbm, ⟨103, _⟩ => ⟨S_, .f32⟩
  | .hbm, ⟨104, _⟩ => ⟨S50000x128, .f32⟩
  | .hbm, ⟨105, _⟩ => ⟨S850000x1, .i32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S50000x1x128, .f32⟩
  | .hbm, ⟨112, _⟩ => ⟨S50000x1x128, .f32⟩
  | .hbm, ⟨113, _⟩ => ⟨S50000x1x128, .f32⟩
  | .hbm, ⟨114, _⟩ => ⟨S50000x3x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_12 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S50000x1x128_0_2 : S50000x128.BroadcastsInDim S50000x1x128 (![0, 2] : Fin 2 → Fin S50000x1x128.rank)
  concatenates_S50000x1x128_S50000x1x128_S50000x1x128_S50000x3x128_d1 : Shape.Concatenates [S50000x1x128, S50000x1x128, S50000x1x128] S50000x3x128 1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.K.Region0.lean ====
import proofs.«412367_j16492674417057_1_alg».proof.Proof.Gen.Kernel.Launch
import proofs.«412367_j16492674417057_1_alg».proof.Proof.Gen.Kernel.Skeleton
import proofs.«412367_j16492674417057_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x128 .f32) (x1 : Vec F S128x128 .f32) : Vec F S5000x128 .f32 :=
  View.canon [⟨rA, k0_pay1 (View.ld x0 rA) (View.ld x1 rW)⟩]
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem cover0_2 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel0 (c : Dev nD) (E : Set ℕ) (i : grid0.Coords) (arg0 : Memref sig .tc .vmem S5000x128 .f32) (harg0 : arg0.IsWhole) (arg1 : Memref sig .tc .vmem S128x128 .f32) (harg1 : arg1.IsWhole) (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«412367_j16492674417057_1_alg».proof.Proof.Gen.Kernel.Launch
import proofs.«412367_j16492674417057_1_alg».proof.Proof.Gen.Kernel.Skeleton
import proofs.«412367_j16492674417057_1_alg».proof.Proof.Gen.Kernel.Points
import proofs.«412367_j16492674417057_1_alg».proof.Proof.K.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S5000x128 .f32) (x1 : Vec F S1x128 .f32) : Vec F S5000x128 .f32 :=
  View.canon [⟨rA, k1_pay1 (View.ld x0 rA) (View.ld x1 rB)⟩]
def out1_4 (x0 : Vec F S5000x128 .f32) (x1 : Vec F S1x128 .f32) (x2 : Vec F S128x128 .f32) : Vec F S5000x128 .f32 :=
  View.canon [⟨rA, k1_pay2 (View.ld x0 rA) (View.ld x1 rB) (View.ld x2 rW)⟩]
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem cover1_3 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y
theorem cover1_4 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S128x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1) ∗ owns (c : Thread nD τ) arg4 fullShare (out1_4 x0 x1 x2)) -∗ K ⟨⟩))
      ⊢ wp frame (wpE (defs₀ (F := F)) Variants.none c none) E (cc1__fused_kernel i arg0 harg0 arg1 harg1 arg2 harg2 arg3 harg3 arg4 harg4) K := by
  simp only [cc1__fused_kernel_eq_skeleton]; unfold cc1__fused_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«412367_j16492674417057_1_alg».proof.Proof.Gen.Kernel.Launch
import proofs.«412367_j16492674417057_1_alg».proof.Proof.Gen.Kernel.Skeleton
import proofs.«412367_j16492674417057_1_alg».proof.Proof.Gen.Kernel.Points
import proofs.«412367_j16492674417057_1_alg».proof.Proof.K.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S5000x128 .f32) (x1 : Vec F S1x128 .f32) : Vec F S5000x128 .f32 :=
  View.canon [⟨rA, k2_pay1 (View.ld x0 rA) (View.ld x1 rB)⟩]
def out2_4 (x0 : Vec F S5000x128 .f32) (x1 : Vec F S1x128 .f32) (x2 : Vec F S128x128 .f32) : Vec F S5000x128 .f32 :=
  View.canon [⟨rA, k2_pay2 (View.ld x0 rA) (View.ld x1 rB) (View.ld x2 rW)⟩]
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem cover2_3 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y
theorem cover2_4 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel2 (c : Dev nD) (E : Set ℕ) (i : grid2.Coords) (arg0 : Memref sig .tc .vmem S5000x128 .f32) (harg0 : arg0.IsWhole) (arg1 : Memref sig .tc .vmem S1x128 .f32) (harg1 : arg1.IsWhole) (arg2 : Memref sig .tc .vmem S128x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1) ∗ owns (c : Thread nD τ) arg4 fullShare (out2_4 x0 x1 x2)) -∗ K ⟨⟩))
      ⊢ wp frame (wpE (defs₀ (F := F)) Variants.none c none) E (cc2__fused_kernel i arg0 harg0 arg1 harg1 arg2 harg2 arg3 harg3 arg4 harg4) K := by
  simp only [cc2__fused_kernel_eq_skeleton]; unfold cc2__fused_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
import proofs.«412367_j16492674417057_1_alg».proof.Proof.Gen.Kernel.Launch
import proofs.«412367_j16492674417057_1_alg».proof.Proof.Gen.Kernel.Skeleton
import proofs.«412367_j16492674417057_1_alg».proof.Proof.Gen.Kernel.Points
import proofs.«412367_j16492674417057_1_alg».proof.Proof.K.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x128 .f32) (x1 : Vec F S1x128 .f32) : Vec F S5000x128 .f32 :=
  View.canon [⟨rA, k3_pay1 (View.ld x0 rA) (View.ld x1 rB)⟩]
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

theorem cover3_2 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__final_kernel i arg1 harg1 arg2 harg2 arg3 harg3) K := by
  simp only [cc3__final_kernel_eq_skeleton]; unfold cc3__final_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

theorem before3_0 (c : Dev nD) (t : Fin cfg3.N) (d) : (dat3 V c).before 0 t d = iblk3 V c 0 t :=
  before3_0_of V (dat3 V c) (A_eq3 V c 0) (after3_0 V c) t d

theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Fold.lean ====
import proofs.«412367_j16492674417057_1_alg».proof.Proof.Gen.Kernel.Launch
import proofs.«412367_j16492674417057_1_alg».proof.Proof.Gen.Kernel.Skeleton
import proofs.«412367_j16492674417057_1_alg».proof.Proof.Gen.Kernel.Points
import proofs.«412367_j16492674417057_1_alg».proof.Proof.Gen.Kernel.Regions
import proofs.«412367_j16492674417057_1_alg».proof.Proof.K.Region0
import proofs.«412367_j16492674417057_1_alg».proof.Proof.K.Region1
import proofs.«412367_j16492674417057_1_alg».proof.Proof.K.Region2
import proofs.«412367_j16492674417057_1_alg».proof.Proof.K.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
abbrev W13 : Dev nD → Valuation τ sig (Elt F) := fun c => StableHlo.after hostOps3 (W12 m ρ c)
abbrev W14 : Dev nD → Valuation τ sig (Elt F) := fun c => StableHlo.after hostOps3_1 (W13 m ρ c)
abbrev W15 : Dev nD → Valuation τ sig (Elt F) := fun c => StableHlo.after hostOps3_2 (W14 m ρ c)
abbrev V15 : (c : Dev nD) → (b : Ref sig .tc) → Buf (Elt F) ((c : Thread nD τ).loc b) := fun c b => W15 m ρ c b
def W16 (c : Dev nD) : Valuation τ sig (Elt F) :=
  Pipeline.withArrays spec3 c (W15 m ρ c) fun w => (dat3 (V15 m ρ) c).arrAt w cfg3.N
theorem W16_arr (c : Dev nD) (w : Fin cfg3.W) :
    W16 m ρ c (Proc.devRef .tc (Pipeline.arrRef spec3 w)) = (dat3 (V15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
abbrev V16 : (c : Dev nD) → (b : Ref sig .tc) → Buf (Elt F) ((c : Thread nD τ).loc b) := fun c b => W16 m ρ c b
theorem hF3 (c : Dev nD) (w : Fin cfg3.W) : (dat3 (V15 m ρ) c).arrAt w cfg3.N = V16 m ρ c (Pipeline.arrRef spec3 w) :=
  (W16_arr m ρ c w).symm
theorem hrest3 (c : Dev nD) : ∀ b, b ∉ Finset.univ.image (Pipeline.arrRef spec3) → V16 m ρ c b = V15 m ρ c b :=
  fun b hb => W16_of_ne m ρ c b fun w e => hb (Finset.mem_image.mpr ⟨w, Finset.mem_univ _, e⟩)
abbrev W17 : Dev nD → Valuation τ sig (Elt F) := fun c => StableHlo.after hostOps4 (W16 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ ([main_v30] : List (Ref sig .tc))) :
    W4 m ρ c (Proc.devRef .tc r) = W3 m ρ c (Proc.devRef .tc r) := by
  by_cases hr : ∃ w, Pipeline.arrRef spec0 w = r
  · obtain ⟨w, rfl⟩ := hr
    have hin : (cfg0.win w).isOut = false := by revert w; decide
    exact (W4_arr m ρ c w).trans (((dat0 (V3 m ρ) c).arrAt_in w hin _).trans (A_eq0 (V3 m ρ) c w))
  · exact W4_of_ne m ρ c r fun w e => hr ⟨w, e⟩
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
theorem W6_of (c : Dev nD) (r : Ref sig .tc) (h : r ∉ hostOps1_1_W) :
    W6 m ρ c (Proc.devRef .tc r) = W5 m ρ c (Proc.devRef .tc r) :=
  StableHlo.after_of_writes_sub hostOps1_1 _ hostOps1_1_writes h
theorem W7_of (c : Dev nD) (r : Ref sig .tc) (h : r ∉ hostOps1_2_W) :
    W7 m ρ c (Proc.devRef .tc r) = W6 m ρ c (Proc.devRef .tc r) :=
  StableHlo.after_of_writes_sub hostOps1_2 _ hostOps1_2_writes h
theorem W8_of (c : Dev nD) (r : Ref sig .tc) (h : r ∉ ([main_v39_0, main_v39_1] : List (Ref sig .tc))) :
    W8 m ρ c (Proc.devRef .tc r) = W7 m ρ c (Proc.devRef .tc r) := by
  by_cases hr : ∃ w, Pipeline.arrRef spec1 w = r
  · obtain ⟨w, rfl⟩ := hr
    have hin : (cfg1.win w).isOut = false := by revert w; decide
    exact (W8_arr m ρ c w).trans (((dat1 (V7 m ρ) c).arrAt_in w hin _).trans (A_eq1 (V7 m ρ) c w))
  · exact W8_of_ne m ρ c r fun w e => hr ⟨w, e⟩
theorem W9_of (c : Dev nD) (r : Ref sig .tc) (h : r ∉ hostOps2_W) :
    W9 m ρ c (Proc.devRef .tc r) = W8 m ρ c (Proc.devRef .tc r) :=
  StableHlo.after_of_writes_sub hostOps2 _ hostOps2_writes h
theorem W10_of (c : Dev nD) (r : Ref sig .tc) (h : r ∉ hostOps2_1_W) :
    W10 m ρ c (Proc.devRef .tc r) = W9 m ρ c (Proc.devRef .tc r) :=
  StableHlo.after_of_writes_sub hostOps2_1 _ hostOps2_1_writes h
theorem W11_of (c : Dev nD) (r : Ref sig .tc) (h : r ∉ hostOps2_2_W) :
    W11 m ρ c (Proc.devRef .tc r) = W10 m ρ c (Proc.devRef .tc r) :=
  StableHlo.after_of_writes_sub hostOps2_2 _ hostOps2_2_writes h
theorem W12_of (c : Dev nD) (r : Ref sig .tc) (h : r ∉ ([main_v48_0, main_v48_1] : List (Ref sig .tc))) :
    W12 m ρ c (Proc.devRef .tc r) = W11 m ρ c (Proc.devRef .tc r) := by
  by_cases hr : ∃ w, Pipeline.arrRef spec2 w = r
  · obtain ⟨w, rfl⟩ := hr
    have hin : (cfg2.win w).isOut = false := by revert w; decide
    exact (W12_arr m ρ c w).trans (((dat2 (V11 m ρ) c).arrAt_in w hin _).trans (A_eq2 (V11 m ρ) c w))
  · exact W12_of_ne m ρ c r fun w e => hr ⟨w, e⟩
theorem W13_of (c : Dev nD) (r : Ref sig .tc) (h : r ∉ hostOps3_W) :
    W13 m ρ c (Proc.devRef .tc r) = W12 m ρ c (Proc.devRef .tc r) :=
  StableHlo.after_of_writes_sub hostOps3 _ hostOps3_writes h
theorem W14_of (c : Dev nD) (r : Ref sig .tc) (h : r ∉ hostOps3_1_W) :
    W14 m ρ c (Proc.devRef .tc r) = W13 m ρ c (Proc.devRef .tc r) :=
  StableHlo.after_of_writes_sub hostOps3_1 _ hostOps3_1_writes h
theorem W15_of (c : Dev nD) (r : Ref sig .tc) (h : r ∉ hostOps3_2_W) :
    W15 m ρ c (Proc.devRef .tc r) = W14 m ρ c (Proc.devRef .tc r) :=
  StableHlo.after_of_writes_sub hostOps3_2 _ hostOps3_2_writes h
theorem W16_of (c : Dev nD) (r : Ref sig .tc) (h : r ∉ ([main_v57] : List (Ref sig .tc))) :
    W16 m ρ c (Proc.devRef .tc r) = W15 m ρ c (Proc.devRef .tc r) := by
  by_cases hr : ∃ w, Pipeline.arrRef spec3 w = r
  · obtain ⟨w, rfl⟩ := hr
    have hin : (cfg3.win w).isOut = false := by revert w; decide
    exact (W16_arr m ρ c w).trans (((dat3 (V15 m ρ) c).arrAt_in w hin _).trans (A_eq3 (V15 m ρ) c w))
  · exact W16_of_ne m ρ c r fun w e => hr ⟨w, e⟩
theorem W17_of (c : Dev nD) (r : Ref sig .tc) (h : r ∉ hostOps4_W) :
    W17 m ρ c (Proc.devRef .tc r) = W16 m ρ c (Proc.devRef .tc r) :=
  StableHlo.after_of_writes_sub hostOps4 _ hostOps4_writes h

theorem nl {α : Type} {a : α} {s t : List α} (h : a ∉ s ++ t) : a ∉ s := fun hh => h (List.mem_append_left t hh)
theorem nr {α : Type} {a : α} {s t : List α} (h : a ∉ s ++ t) : a ∉ t := fun hh => h (List.mem_append_right s hh)

abbrev wr3 : List (Ref sig .tc) := hostOps0_W ++ hostOps0_1_W ++ hostOps0_2_W
abbrev wr6 : List (Ref sig .tc) := wr3 ++ [main_v30] ++ hostOps1_W ++ hostOps1_1_W
abbrev wr7 : List (Ref sig .tc) := wr6 ++ hostOps1_2_W
abbrev wr10 : List (Ref sig .tc) := wr7 ++ [main_v39_0, main_v39_1] ++ hostOps2_W ++ hostOps2_1_W
abbrev wr11 : List (Ref sig .tc) := wr10 ++ hostOps2_2_W
abbrev wr14 : List (Ref sig .tc) := wr11 ++ [main_v48_0, main_v48_1] ++ hostOps3_W ++ hostOps3_1_W
abbrev wr17 : List (Ref sig .tc) := wr14 ++ hostOps3_2_W ++ [main_v57] ++ hostOps4_W

/-- A buffer that no segment so far writes still holds what the program was launched with. -/
theorem keep3 (c : Dev nD) (r : Ref sig .tc) (h : r ∉ wr3) : W3 m ρ c (Proc.devRef .tc r) = m ((c : Thread nD τ).loc r) :=
  (W3_of m ρ c r (nr h)).trans <| (W2_of m ρ c r (nr (nl h))).trans (W1_of m ρ c r (nl (nl h)))
theorem keep6 (c : Dev nD) (r : Ref sig .tc) (h : r ∉ wr6) : W6 m ρ c (Proc.devRef .tc r) = m ((c : Thread nD τ).loc r) :=
  (W6_of m ρ c r (nr h)).trans <| (W5_of m ρ c r (nr (nl h))).trans <| (W4_of m ρ c r (nr (nl (nl h)))).trans (keep3 m ρ c r (nl (nl (nl h))))
theorem keep7 (c : Dev nD) (r : Ref sig .tc) (h : r ∉ wr7) : W7 m ρ c (Proc.devRef .tc r) = m ((c : Thread nD τ).loc r) :=
  (W7_of m ρ c r (nr h)).trans (keep6 m ρ c r (nl h))
theorem keep10 (c : Dev nD) (r : Ref sig .tc) (h : r ∉ wr10) : W10 m ρ c (Proc.devRef .tc r) = m ((c : Thread nD τ).loc r) :=
  (W10_of m ρ c r (nr h)).trans <| (W9_of m ρ c r (nr (nl h))).trans <| (W8_of m ρ c r (nr (nl (nl h)))).trans (keep7 m ρ c r (nl (nl (nl h))))
theorem keep11 (c : Dev nD) (r : Ref sig .tc) (h : r ∉ wr11) : W11 m ρ c (Proc.devRef .tc r) = m ((c : Thread nD τ).loc r) :=
  (W11_of m ρ c r (nr h)).trans (keep10 m ρ c r (nl h))
theorem keep14 (c : Dev nD) (r : Ref sig .tc) (h : r ∉ wr14) : W14 m ρ c (Proc.devRef .tc r) = m ((c : Thread nD τ).loc r) :=
  (W14_of m ρ c r (nr h)).trans <| (W13_of m ρ c r (nr (nl h))).trans <| (W12_of m ρ c r (nr (nl (nl h)))).trans (keep11 m ρ c r (nl (nl (nl h))))
theorem keep17 (c : Dev nD) (r : Ref sig .tc) (h : r ∉ wr17) : W17 m ρ c (Proc.devRef .tc r) = m ((c : Thread nD τ).loc r) :=
  (W17_of m ρ c r (nr h)).trans <| (W16_of m ρ c r (nr (nl h))).trans <| (W15_of m ρ c r (nr (nl (nl h)))).trans (keep14 m ρ c r (nl (nl (nl h))))

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
  | ⟨3, _⟩ => fun c => dat3 (V15 m ρ) c

end Cert.Kernel.Hand

end
-- ==== Proof.K.RegsCommon.lean ====
import proofs.«412367_j16492674417057_1_alg».proof.Proof.Gen.Kernel.Launch
import proofs.«412367_j16492674417057_1_alg».proof.Proof.Gen.Kernel.Skeleton
import proofs.«412367_j16492674417057_1_alg».proof.Proof.Gen.Kernel.Points
import proofs.«412367_j16492674417057_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

end Cert.Kernel.Hand

end
-- ==== Proof.K.RegsA.lean ====
import proofs.«412367_j16492674417057_1_alg».proof.Proof.Gen.Kernel.Launch
import proofs.«412367_j16492674417057_1_alg».proof.Proof.Gen.Kernel.Skeleton
import proofs.«412367_j16492674417057_1_alg».proof.Proof.Gen.Kernel.Points
import proofs.«412367_j16492674417057_1_alg».proof.Proof.K.Fold
import proofs.«412367_j16492674417057_1_alg».proof.Proof.K.RegsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegsB.lean ====
import proofs.«412367_j16492674417057_1_alg».proof.Proof.K.RegsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hbufs, Hreg, Howes⟩, -, -⟩
    ihave Hparts := hsplit $$ Hbufs
    icases Hparts with ⟨Harr, Hrest⟩
    imodintro
    isplitl [Harr]; · iexact Harr
    isplitr
    ·
      unfold Pipeline.prefHeld
      rw [show (Finset.univ : Finset (Fin 0)) = ∅ from rfl, BI.bigSep_empty]
      iempintro
    isplitl [Howes]
    ·
      unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m ρ 2 c).Φ 0 = Pipeline.ΦA spec2 c from rfl]
    unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Harr, Howes, Hreg, Hrest⟩
    imodintro
    isplitl [Harr Hrest]
    · iapply hjoin
      isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m ρ) c).loose
  hwaits := Pipeline.hwaits_of_owed_zero _ _ _ _ L lv 3 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec3 c (V15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V15 m ρ c) fun _ => rfl
    rw [Pipeline.unscopedBufs_held] at hsplit
    iintro ⟨⟨Hbufs, Hreg, Howes⟩, -, -⟩
    ihave Hparts := hsplit $$ Hbufs
    icases Hparts with ⟨Harr, Hrest⟩
    imodintro
    isplitl [Harr]; · iexact Harr
    isplitr
    ·
      unfold Pipeline.prefHeld
      rw [show (Finset.univ : Finset (Fin 0)) = ∅ from rfl, BI.bigSep_empty]
      iempintro
    isplitl [Howes]
    ·
      unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m ρ 3 c).Φ 0 = Pipeline.ΦA spec3 c from rfl]
    unfold Pipeline.ΦA
    iintro ⟨Hreg, -, Hscoped⟩
    isplitl [Hscoped]; · iexact Hscoped
    iexact Hreg
  hout c := by
    rw [Pipeline.ownSems0_none, show (pdats m ρ 3 c).Φ (Fin.last _) = Pipeline.ΦA spec3 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V15 m ρ c) (V16 m ρ c) ((pdats m ρ 3 c).arrAt · cfg3.N) (hF3 m ρ c) (hrest3 m ρ c)
    rw [Pipeline.unscopedBufs_held] at hjoin
    iintro ⟨Harr, Howes, Hreg, Hrest⟩
    imodintro
    isplitl [Harr Hrest]
    · iapply hjoin
      isplitl [Harr] <;> iassumption
    isplitl [Hreg]; · iexact Hreg
    unfold Pipeline.Dat.owesAt Pipeline.owesWithin
    icases Howes with ⟨%W, -, Howes⟩
    iexists W; iexact Howes

end Cert.Kernel.Hand

end
-- ==== Proof.K.Segs.lean ====
import proofs.«412367_j16492674417057_1_alg».proof.Proof.K.RegsA
import proofs.«412367_j16492674417057_1_alg».proof.Proof.K.RegsB
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .region (reg3 m ρ),
    .host (hseg hostOps4 hostOps4_sub hostOps4_fresh (W16 m ρ)) ]

theorem main_run (c : Dev nD) : main (F := F) c = Pipeline.Seg.run (segs m ρ) := (main_chain c).trans (by chain_rfl)

theorem last_state (c : Dev nD) :
    iprop(StableHlo.held (c : Thread nD τ) (Pipeline.ucRefs τ sig) (W17 m ρ c) ∗ R c)
      ⊢ (iprop(Tₙ m ρ c ∗ ∃ W, owes (c : Thread nD τ) (0 : CellTallies nD τ sig Unit) W) : sProp 𝕄) := by
  iintro ⟨Hbufs, Hreg, Howes⟩
  isplitl [Hbufs Hreg]
  · isplitl [Hbufs] <;> iassumption
  iexact Howes

set_option backward.isDefEq.respectTransparency.types false in
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W17 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W17 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W17 m ρ c) s')
      isplitl [Hbufs] <;> iassumption)
    (hQ := hQ)

/-- The result array ends at what the last boundary names for it, and no segment writes an argument. -/
theorem result_v61 : θ_run defs (onTc (τ := τ) (main (F := F))) ⟨m, fun _ => 0, ρ⟩ (fun r => ∀ c : Dev nD,
      r.2.mem ((c.tc : Thread nD τ).loc main_v61) = W17 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_of m ρ fun s h c =>
    ⟨h c _ (mem_uc main_v61 (by decide)),
      (h c _ (mem_uc main_arg0 (by decide))).trans (keep17 m ρ c main_arg0 (by decide)),
      (h c _ (mem_uc main_arg1 (by decide))).trans (keep17 m ρ c main_arg1 (by decide)),
      (h c _ (mem_uc main_arg2 (by decide))).trans (keep17 m ρ c main_arg2 (by decide)),
      (h c _ (mem_uc main_arg3 (by decide))).trans (keep17 m ρ c main_arg3 (by decide)),
      (h c _ (mem_uc main_arg4 (by decide))).trans (keep17 m ρ c main_arg4 (by decide)),
      (h c _ (mem_uc main_arg5 (by decide))).trans (keep17 m ρ c main_arg5 (by decide)),
      (h c _ (mem_uc main_arg6 (by decide))).trans (keep17 m ρ c main_arg6 (by decide)),
      (h c _ (mem_uc main_arg7 (by decide))).trans (keep17 m ρ c main_arg7 (by decide))⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (result_v61 m ρ)

end Cert.Kernel.Hand

end
-- ==== Proof.KI.Region0.lean ====
import proofs.«412367_j16492674417057_1_alg».proof.Proof.Gen.KernelIdeal.Launch
import proofs.«412367_j16492674417057_1_alg».proof.Proof.Gen.KernelIdeal.Skeleton
import proofs.«412367_j16492674417057_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
abbrev rA : Rect S5000x128 := Rect.unit (s := S5000x128) ![0, 0] S5000x128.size inb_S5000x128_S5000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x128 .f32) (x1 : Vec F S128x128 .f32) : Vec F S5000x128 .f32 :=
  View.canon [⟨rA, k0_pay1 (View.ld x0 rA) (View.ld x1 rW)⟩]
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem cover0_2 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel0 (c : Dev nD) (E : Set ℕ) (i : grid0.Coords) (arg0 : Memref sig .tc .vmem S5000x128 .f32) (harg0 : arg0.IsWhole) (arg1 : Memref sig .tc .vmem S128x128 .f32) (harg1 : arg1.IsWhole) (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«412367_j16492674417057_1_alg».proof.Proof.Gen.KernelIdeal.Launch
import proofs.«412367_j16492674417057_1_alg».proof.Proof.Gen.KernelIdeal.Skeleton
import proofs.«412367_j16492674417057_1_alg».proof.Proof.Gen.KernelIdeal.Points
import proofs.«412367_j16492674417057_1_alg».proof.Proof.KI.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S5000x128 .f32) (x1 : Vec F S1x128 .f32) : Vec F S5000x128 .f32 :=
  View.canon [⟨rA, k1_pay1 (View.ld x0 rA) (View.ld x1 rB)⟩]
def out1_4 (x0 : Vec F S5000x128 .f32) (x1 : Vec F S1x128 .f32) (x2 : Vec F S128x128 .f32) : Vec F S5000x128 .f32 :=
  View.canon [⟨rA, k1_pay2 (View.ld x0 rA) (View.ld x1 rB) (View.ld x2 rW)⟩]
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem cover1_3 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y
theorem cover1_4 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel1 (c : Dev nD) (E : Set ℕ) (i : grid1.Coords) (arg0 : Memref sig .tc .vmem S5000x128 .f32) (harg0 : arg0.IsWhole) (arg1 : Memref sig .tc .vmem S1x128 .f32) (harg1 : arg1.IsWhole) (arg2 : Memref sig .tc .vmem S128x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1) ∗ owns (c : Thread nD τ) arg4 fullShare (out1_4 x0 x1 x2)) -∗ K ⟨⟩))
      ⊢ wp frame (wpE (defs₀ (F := F)) Variants.none c none) E (cc1__fused_kernel i arg0 harg0 arg1 harg1 arg2 harg2 arg3 harg3 arg4 harg4) K := by
  simp only [cc1__fused_kernel_eq_skeleton]; unfold cc1__fused_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«412367_j16492674417057_1_alg».proof.Proof.Gen.KernelIdeal.Launch
import proofs.«412367_j16492674417057_1_alg».proof.Proof.Gen.KernelIdeal.Skeleton
import proofs.«412367_j16492674417057_1_alg».proof.Proof.Gen.KernelIdeal.Points
import proofs.«412367_j16492674417057_1_alg».proof.Proof.KI.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S5000x128 .f32) (x1 : Vec F S1x128 .f32) : Vec F S5000x128 .f32 :=
  View.canon [⟨rA, k2_pay1 (View.ld x0 rA) (View.ld x1 rB)⟩]
def out2_4 (x0 : Vec F S5000x128 .f32) (x1 : Vec F S1x128 .f32) (x2 : Vec F S128x128 .f32) : Vec F S5000x128 .f32 :=
  View.canon [⟨rA, k2_pay2 (View.ld x0 rA) (View.ld x1 rB) (View.ld x2 rW)⟩]
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem cover2_3 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y
theorem cover2_4 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel2 (c : Dev nD) (E : Set ℕ) (i : grid2.Coords) (arg0 : Memref sig .tc .vmem S5000x128 .f32) (harg0 : arg0.IsWhole) (arg1 : Memref sig .tc .vmem S1x128 .f32) (harg1 : arg1.IsWhole) (arg2 : Memref sig .tc .vmem S128x128 .f32) (harg2 : arg2.IsWhole) (arg3 : Memref sig .tc .vmem S5000x128 .f32) (harg3 : arg3.IsWhole) (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1) ∗ owns (c : Thread nD τ) arg4 fullShare (out2_4 x0 x1 x2)) -∗ K ⟨⟩))
      ⊢ wp frame (wpE (defs₀ (F := F)) Variants.none c none) E (cc2__fused_kernel i arg0 harg0 arg1 harg1 arg2 harg2 arg3 harg3 arg4 harg4) K := by
  simp only [cc2__fused_kernel_eq_skeleton]; unfold cc2__fused_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
import proofs.«412367_j16492674417057_1_alg».proof.Proof.Gen.KernelIdeal.Launch
import proofs.«412367_j16492674417057_1_alg».proof.Proof.Gen.KernelIdeal.Skeleton
import proofs.«412367_j16492674417057_1_alg».proof.Proof.Gen.KernelIdeal.Points
import proofs.«412367_j16492674417057_1_alg».proof.Proof.KI.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x128 .f32) (x1 : Vec F S1x128 .f32) : Vec F S5000x128 .f32 :=
  View.canon [⟨rA, k3_pay1 (View.ld x0 rA) (View.ld x1 rB)⟩]
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl)
      (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl)
      (fun t => by rw [hafter]; unfold Dat.blockOf iblk3; rw [hA]; try rfl) t d).trans
    (by unfold Dat.fetched Dat.blockOf iblk3; rw [hA]; try rfl)

theorem cover3_2 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__final_kernel i arg1 harg1 arg2 harg2 arg3 harg3) K := by
  simp only [cc3__final_kernel_eq_skeleton]; unfold cc3__final_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

theorem before3_0 (c : Dev nD) (t : Fin cfg3.N) (d) : (dat3 V c).before 0 t d = iblk3 V c 0 t :=
  before3_0_of V (dat3 V c) (A_eq3 V c 0) (after3_0 V c) t d

theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Fold.lean ====
import proofs.«412367_j16492674417057_1_alg».proof.Proof.Gen.KernelIdeal.Launch
import proofs.«412367_j16492674417057_1_alg».proof.Proof.Gen.KernelIdeal.Skeleton
import proofs.«412367_j16492674417057_1_alg».proof.Proof.Gen.KernelIdeal.Points
import proofs.«412367_j16492674417057_1_alg».proof.Proof.Gen.KernelIdeal.Regions
import proofs.«412367_j16492674417057_1_alg».proof.Proof.KI.Region0
import proofs.«412367_j16492674417057_1_alg».proof.Proof.KI.Region1
import proofs.«412367_j16492674417057_1_alg».proof.Proof.KI.Region2
import proofs.«412367_j16492674417057_1_alg».proof.Proof.KI.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev V12 : (c : Dev nD) → (b : Ref sig .tc) → Buf (Elt F) ((c : Thread nD τ).loc b) := fun c b => W12 m ρ c b
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
abbrev W13 : Dev nD → Valuation τ sig (Elt F) := fun c => StableHlo.after hostOps3 (W12 m ρ c)
abbrev W14 : Dev nD → Valuation τ sig (Elt F) := fun c => StableHlo.after hostOps3_1 (W13 m ρ c)
abbrev W15 : Dev nD → Valuation τ sig (Elt F) := fun c => StableHlo.after hostOps3_2 (W14 m ρ c)
abbrev V15 : (c : Dev nD) → (b : Ref sig .tc) → Buf (Elt F) ((c : Thread nD τ).loc b) := fun c b => W15 m ρ c b
def W16 (c : Dev nD) : Valuation τ sig (Elt F) :=
  Pipeline.withArrays spec3 c (W15 m ρ c) fun w => (dat3 (V15 m ρ) c).arrAt w cfg3.N
theorem W16_arr (c : Dev nD) (w : Fin cfg3.W) :
    W16 m ρ c (Proc.devRef .tc (Pipeline.arrRef spec3 w)) = (dat3 (V15 m ρ) c).arrAt w cfg3.N := by
  unfold W16; exact Pipeline.withArrays_arr spec3 launch3.win.arr_inj c _ _ w
theorem W16_of_ne (c : Dev nD) (b : Ref sig .tc) (hb : ∀ w, Pipeline.arrRef spec3 w ≠ b) :
    W16 m ρ c (Proc.devRef .tc b) = W15 m ρ c (Proc.devRef .tc b) := by
  unfold W16; exact Pipeline.withArrays_of_ne spec3 c _ _ b hb
abbrev V16 : (c : Dev nD) → (b : Ref sig .tc) → Buf (Elt F) ((c : Thread nD τ).loc b) := fun c b => W16 m ρ c b
theorem hF3 (c : Dev nD) (w : Fin cfg3.W) : (dat3 (V15 m ρ) c).arrAt w cfg3.N = V16 m ρ c (Pipeline.arrRef spec3 w) :=
  (W16_arr m ρ c w).symm
theorem hrest3 (c : Dev nD) : ∀ b, b ∉ Finset.univ.image (Pipeline.arrRef spec3) → V16 m ρ c b = V15 m ρ c b :=
  fun b hb => W16_of_ne m ρ c b fun w e => hb (Finset.mem_image.mpr ⟨w, Finset.mem_univ _, e⟩)
abbrev W17 : Dev nD → Valuation τ sig (Elt F) := fun c => StableHlo.after hostOps4 (W16 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W4_of (c : Dev nD) (r : Ref sig .tc) (h : r ∉ ([main_v30] : List (Ref sig .tc))) :
    W4 m ρ c (Proc.devRef .tc r) = W3 m ρ c (Proc.devRef .tc r) := by
  by_cases hr : ∃ w, Pipeline.arrRef spec0 w = r
  · obtain ⟨w, rfl⟩ := hr
    have hin : (cfg0.win w).isOut = false := by revert w; decide
    exact (W4_arr m ρ c w).trans (((dat0 (V3 m ρ) c).arrAt_in w hin _).trans (A_eq0 (V3 m ρ) c w))
  · exact W4_of_ne m ρ c r fun w e => hr ⟨w, e⟩
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
theorem W6_of (c : Dev nD) (r : Ref sig .tc) (h : r ∉ hostOps1_1_W) :
    W6 m ρ c (Proc.devRef .tc r) = W5 m ρ c (Proc.devRef .tc r) :=
  StableHlo.after_of_writes_sub hostOps1_1 _ hostOps1_1_writes h
theorem W7_of (c : Dev nD) (r : Ref sig .tc) (h : r ∉ hostOps1_2_W) :
    W7 m ρ c (Proc.devRef .tc r) = W6 m ρ c (Proc.devRef .tc r) :=
  StableHlo.after_of_writes_sub hostOps1_2 _ hostOps1_2_writes h
theorem W8_of (c : Dev nD) (r : Ref sig .tc) (h : r ∉ ([main_v39_0, main_v39_1] : List (Ref sig .tc))) :
    W8 m ρ c (Proc.devRef .tc r) = W7 m ρ c (Proc.devRef .tc r) := by
  by_cases hr : ∃ w, Pipeline.arrRef spec1 w = r
  · obtain ⟨w, rfl⟩ := hr
    have hin : (cfg1.win w).isOut = false := by revert w; decide
    exact (W8_arr m ρ c w).trans (((dat1 (V7 m ρ) c).arrAt_in w hin _).trans (A_eq1 (V7 m ρ) c w))
  · exact W8_of_ne m ρ c r fun w e => hr ⟨w, e⟩
theorem W9_of (c : Dev nD) (r : Ref sig .tc) (h : r ∉ hostOps2_W) :
    W9 m ρ c (Proc.devRef .tc r) = W8 m ρ c (Proc.devRef .tc r) :=
  StableHlo.after_of_writes_sub hostOps2 _ hostOps2_writes h
theorem W10_of (c : Dev nD) (r : Ref sig .tc) (h : r ∉ hostOps2_1_W) :
    W10 m ρ c (Proc.devRef .tc r) = W9 m ρ c (Proc.devRef .tc r) :=
  StableHlo.after_of_writes_sub hostOps2_1 _ hostOps2_1_writes h
theorem W11_of (c : Dev nD) (r : Ref sig .tc) (h : r ∉ hostOps2_2_W) :
    W11 m ρ c (Proc.devRef .tc r) = W10 m ρ c (Proc.devRef .tc r) :=
  StableHlo.after_of_writes_sub hostOps2_2 _ hostOps2_2_writes h
theorem W12_of (c : Dev nD) (r : Ref sig .tc) (h : r ∉ ([main_v48_0, main_v48_1] : List (Ref sig .tc))) :
    W12 m ρ c (Proc.devRef .tc r) = W11 m ρ c (Proc.devRef .tc r) := by
  by_cases hr : ∃ w, Pipeline.arrRef spec2 w = r
  · obtain ⟨w, rfl⟩ := hr
    have hin : (cfg2.win w).isOut = false := by revert w; decide
    exact (W12_arr m ρ c w).trans (((dat2 (V11 m ρ) c).arrAt_in w hin _).trans (A_eq2 (V11 m ρ) c w))
  · exact W12_of_ne m ρ c r fun w e => hr ⟨w, e⟩
theorem W13_of (c : Dev nD) (r : Ref sig .tc) (h : r ∉ hostOps3_W) :
    W13 m ρ c (Proc.devRef .tc r) = W12 m ρ c (Proc.devRef .tc r) :=
  StableHlo.after_of_writes_sub hostOps3 _ hostOps3_writes h
theorem W14_of (c : Dev nD) (r : Ref sig .tc) (h : r ∉ hostOps3_1_W) :
    W14 m ρ c (Proc.devRef .tc r) = W13 m ρ c (Proc.devRef .tc r) :=
  StableHlo.after_of_writes_sub hostOps3_1 _ hostOps3_1_writes h
theorem W15_of (c : Dev nD) (r : Ref sig .tc) (h : r ∉ hostOps3_2_W) :
    W15 m ρ c (Proc.devRef .tc r) = W14 m ρ c (Proc.devRef .tc r) :=
  StableHlo.after_of_writes_sub hostOps3_2 _ hostOps3_2_writes h
theorem W16_of (c : Dev nD) (r : Ref sig .tc) (h : r ∉ ([main_v57] : List (Ref sig .tc))) :
    W16 m ρ c (Proc.devRef .tc r) = W15 m ρ c (Proc.devRef .tc r) := by
  by_cases hr : ∃ w, Pipeline.arrRef spec3 w = r
  · obtain ⟨w, rfl⟩ := hr
    have hin : (cfg3.win w).isOut = false := by revert w; decide
    exact (W16_arr m ρ c w).trans (((dat3 (V15 m ρ) c).arrAt_in w hin _).trans (A_eq3 (V15 m ρ) c w))
  · exact W16_of_ne m ρ c r fun w e => hr ⟨w, e⟩
theorem W17_of (c : Dev nD) (r : Ref sig .tc) (h : r ∉ hostOps4_W) :
    W17 m ρ c (Proc.devRef .tc r) = W16 m ρ c (Proc.devRef .tc r) :=
  StableHlo.after_of_writes_sub hostOps4 _ hostOps4_writes h

theorem nl {α : Type} {a : α} {s t : List α} (h : a ∉ s ++ t) : a ∉ s := fun hh => h (List.mem_append_left t hh)
theorem nr {α : Type} {a : α} {s t : List α} (h : a ∉ s ++ t) : a ∉ t := fun hh => h (List.mem_append_right s hh)

abbrev wr3 : List (Ref sig .tc) := hostOps0_W ++ hostOps0_1_W ++ hostOps0_2_W
abbrev wr6 : List (Ref sig .tc) := wr3 ++ [main_v30] ++ hostOps1_W ++ hostOps1_1_W
abbrev wr7 : List (Ref sig .tc) := wr6 ++ hostOps1_2_W
abbrev wr10 : List (Ref sig .tc) := wr7 ++ [main_v39_0, main_v39_1] ++ hostOps2_W ++ hostOps2_1_W
abbrev wr11 : List (Ref sig .tc) := wr10 ++ hostOps2_2_W
abbrev wr14 : List (Ref sig .tc) := wr11 ++ [main_v48_0, main_v48_1] ++ hostOps3_W ++ hostOps3_1_W
abbrev wr17 : List (Ref sig .tc) := wr14 ++ hostOps3_2_W ++ [main_v57] ++ hostOps4_W

/-- A buffer that no segment so far writes still holds what the program was launched with. -/
theorem keep3 (c : Dev nD) (r : Ref sig .tc) (h : r ∉ wr3) : W3 m ρ c (Proc.devRef .tc r) = m ((c : Thread nD τ).loc r) :=
  (W3_of m ρ c r (nr h)).trans <| (W2_of m ρ c r (nr (nl h))).trans (W1_of m ρ c r (nl (nl h)))
theorem keep6 (c : Dev nD) (r : Ref sig .tc) (h : r ∉ wr6) : W6 m ρ c (Proc.devRef .tc r) = m ((c : Thread nD τ).loc r) :=
  (W6_of m ρ c r (nr h)).trans <| (W5_of m ρ c r (nr (nl h))).trans <| (W4_of m ρ c r (nr (nl (nl h)))).trans (keep3 m ρ c r (nl (nl (nl h))))
theorem keep7 (c : Dev nD) (r : Ref sig .tc) (h : r ∉ wr7) : W7 m ρ c (Proc.devRef .tc r) = m ((c : Thread nD τ).loc r) :=
  (W7_of m ρ c r (nr h)).trans (keep6 m ρ c r (nl h))
theorem keep10 (c : Dev nD) (r : Ref sig .tc) (h : r ∉ wr10) : W10 m ρ c (Proc.devRef .tc r) = m ((c : Thread nD τ).loc r) :=
  (W10_of m ρ c r (nr h)).trans <| (W9_of m ρ c r (nr (nl h))).trans <| (W8_of m ρ c r (nr (nl (nl h)))).trans (keep7 m ρ c r (nl (nl (nl h))))
theorem keep11 (c : Dev nD) (r : Ref sig .tc) (h : r ∉ wr11) : W11 m ρ c (Proc.devRef .tc r) = m ((c : Thread nD τ).loc r) :=
  (W11_of m ρ c r (nr h)).trans (keep10 m ρ c r (nl h))
theorem keep14 (c : Dev nD) (r : Ref sig .tc) (h : r ∉ wr14) : W14 m ρ c (Proc.devRef .tc r) = m ((c : Thread nD τ).loc r) :=
  (W14_of m ρ c r (nr h)).trans <| (W13_of m ρ c r (nr (nl h))).trans <| (W12_of m ρ c r (nr (nl (nl h)))).trans (keep11 m ρ c r (nl (nl (nl h))))
theorem keep17 (c : Dev nD) (r : Ref sig .tc) (h : r ∉ wr17) : W17 m ρ c (Proc.devRef .tc r) = m ((c : Thread nD τ).loc r) :=
  (W17_of m ρ c r (nr h)).trans <| (W16_of m ρ c r (nr (nl h))).trans <| (W15_of m ρ c r (nr (nl (nl h)))).trans (keep14 m ρ c r (nl (nl (nl h))))

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
  | ⟨3, _⟩ => fun c => dat3 (V15 m ρ) c

end Cert.KernelIdeal.Hand

end
-- ==== Proof.KI.RegsCommon.lean ====
import proofs.«412367_j16492674417057_1_alg».proof.Proof.Gen.KernelIdeal.Launch
import proofs.«412367_j16492674417057_1_alg».proof.Proof.Gen.KernelIdeal.Skeleton
import proofs.«412367_j16492674417057_1_alg».proof.Proof.Gen.KernelIdeal.Points
import proofs.«412367_j16492674417057_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

end Cert.KernelIdeal.Hand

end
-- ==== Proof.KI.RegsA.lean ====
import proofs.«412367_j16492674417057_1_alg».proof.Proof.Gen.KernelIdeal.Launch
import proofs.«412367_j16492674417057_1_alg».proof.Proof.Gen.KernelIdeal.Skeleton
import proofs.«412367_j16492674417057_1_alg».proof.Proof.Gen.KernelIdeal.Points
import proofs.«412367_j16492674417057_1_alg».proof.Proof.KI.Fold
import proofs.«412367_j16492674417057_1_alg».proof.Proof.KI.RegsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegsB.lean ====
import proofs.«412367_j16492674417057_1_alg».proof.Proof.KI.RegsCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hbufs, Hreg, Howes⟩, -, -⟩
    ihave Hparts := hsplit $$ Hbufs
    icases Hparts with ⟨Harr, Hrest⟩
    imodintro
    isplitl [Harr]; · iexact Harr
    isplitr
    ·
      unfold Pipeline.prefHeld
      rw [show (Finset.univ : Finset (Fin 0)) = ∅ from rfl, BI.bigSep_empty]
      iempintro
    isplitl [Howes]
    ·
      unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m ρ 2 c).Φ 0 = Pipeline.ΦA spec2 c from rfl]
    unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Harr, Howes, Hreg, Hrest⟩
    imodintro
    isplitl [Harr Hrest]
    · iapply hjoin
      isplitl [Harr] <;> iassumption
    isplitl [Hreg]; · iexact Hreg
    unfold Pipeline.Dat.owesAt Pipeline.owesWithin
    icases Howes with ⟨%W, -, Howes⟩
    iexists W; iexact Howes

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V15 m ρ) c).loose
  hwaits := Pipeline.hwaits_of_owed_zero _ _ _ _ L lv 3 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec3 c (V15 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V15 m ρ c) fun _ => rfl
    rw [Pipeline.unscopedBufs_held] at hsplit
    iintro ⟨⟨Hbufs, Hreg, Howes⟩, -, -⟩
    ihave Hparts := hsplit $$ Hbufs
    icases Hparts with ⟨Harr, Hrest⟩
    imodintro
    isplitl [Harr]; · iexact Harr
    isplitr
    ·
      unfold Pipeline.prefHeld
      rw [show (Finset.univ : Finset (Fin 0)) = ∅ from rfl, BI.bigSep_empty]
      iempintro
    isplitl [Howes]
    ·
      unfold Pipeline.Dat.owesAt Pipeline.owesWithin
      icases Howes with ⟨%W, Howes⟩
      iexists W
      isplitr; · ipureintro; exact fun _ _ => Or.inl trivial
      iexact Howes
    isplitl [Hreg]; · iexact Hreg
    iexact Hrest
  hin c := by
    rw [show (pdats m ρ 3 c).Φ 0 = Pipeline.ΦA spec3 c from rfl]
    unfold Pipeline.ΦA
    iintro ⟨Hreg, -, Hscoped⟩
    isplitl [Hscoped]; · iexact Hscoped
    iexact Hreg
  hout c := by
    rw [Pipeline.ownSems0_none, show (pdats m ρ 3 c).Φ (Fin.last _) = Pipeline.ΦA spec3 c from rfl]
    unfold Pipeline.ΦA
    iintro ⟨Hscoped, Hreg⟩
    isplitl [Hreg]; · iexact Hreg
    isplitr; · iempintro
    iexact Hscoped
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V15 m ρ c) (V16 m ρ c) ((pdats m ρ 3 c).arrAt · cfg3.N) (hF3 m ρ c) (hrest3 m ρ c)
    rw [Pipeline.unscopedBufs_held] at hjoin
    iintro ⟨Harr, Howes, Hreg, Hrest⟩
    imodintro
    isplitl [Harr Hrest]
    · iapply hjoin
      isplitl [Harr] <;> iassumption
    isplitl [Hreg]; · iexact Hreg
    unfold Pipeline.Dat.owesAt Pipeline.owesWithin
    icases Howes with ⟨%W, -, Howes⟩
    iexists W; iexact Howes

end Cert.KernelIdeal.Hand

end
-- ==== Proof.KI.Segs.lean ====
import proofs.«412367_j16492674417057_1_alg».proof.Proof.KI.RegsA
import proofs.«412367_j16492674417057_1_alg».proof.Proof.KI.RegsB
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .region (reg3 m ρ),
    .host (hseg hostOps4 hostOps4_sub hostOps4_fresh (W16 m ρ)) ]

theorem main_run (c : Dev nD) : main (F := F) c = Pipeline.Seg.run (segs m ρ) := (main_chain c).trans (by chain_rfl)

theorem last_state (c : Dev nD) :
    iprop(StableHlo.held (c : Thread nD τ) (Pipeline.ucRefs τ sig) (W17 m ρ c) ∗ R c)
      ⊢ (iprop(Tₙ m ρ c ∗ ∃ W, owes (c : Thread nD τ) (0 : CellTallies nD τ sig Unit) W) : sProp 𝕄) := by
  iintro ⟨Hbufs, Hreg, Howes⟩
  isplitl [Hbufs Hreg]
  · isplitl [Hbufs] <;> iassumption
  iexact Howes

set_option backward.isDefEq.respectTransparency.types false in
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W17 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W17 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W17 m ρ c) s')
      isplitl [Hbufs] <;> iassumption)
    (hQ := hQ)

/-- The result array ends at what the last boundary names for it, and no segment writes an argument. -/
theorem result_v61 : θ_run defs (onTc (τ := τ) (main (F := F))) ⟨m, fun _ => 0, ρ⟩ (fun r => ∀ c : Dev nD,
      r.2.mem ((c.tc : Thread nD τ).loc main_v61) = W17 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_of m ρ fun s h c =>
    ⟨h c _ (mem_uc main_v61 (by decide)),
      (h c _ (mem_uc main_arg0 (by decide))).trans (keep17 m ρ c main_arg0 (by decide)),
      (h c _ (mem_uc main_arg1 (by decide))).trans (keep17 m ρ c main_arg1 (by decide)),
      (h c _ (mem_uc main_arg2 (by decide))).trans (keep17 m ρ c main_arg2 (by decide)),
      (h c _ (mem_uc main_arg3 (by decide))).trans (keep17 m ρ c main_arg3 (by decide)),
      (h c _ (mem_uc main_arg4 (by decide))).trans (keep17 m ρ c main_arg4 (by decide)),
      (h c _ (mem_uc main_arg5 (by decide))).trans (keep17 m ρ c main_arg5 (by decide)),
      (h c _ (mem_uc main_arg6 (by decide))).trans (keep17 m ρ c main_arg6 (by decide)),
      (h c _ (mem_uc main_arg7 (by decide))).trans (keep17 m ρ c main_arg7 (by decide))⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (result_v61 m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨2, ![50000, 128]⟩
abbrev SW : Shape := ⟨2, ![128, 128]⟩
abbrev SB : Shape := ⟨1, ![128]⟩

/-- The dense product of node features with a weight matrix. -/
def lin (h : SN.Idx → EReal) (W : SW.Idx → EReal) : SN.Idx → EReal :=
  fun i => ∑ k : Fin 128, h (ix2 (n0 := 50000) (n1 := 128) (i 0) k) * W (ix2 (n0 := 128) (n1 := 128) k (i 1))

/-- Bias along the channels, then tanh, entry by entry. -/
def act (a : SN.Idx → EReal) (b : SB.Idx → EReal) : SN.Idx → EReal :=
  fun i => Ideal.tanh (a i + b (ix1 (n := 128) (i 1)))

/-- Three layers `h ↦ act (A (lin h W)) b` over an aggregation `A`, the three activations combined by `St`. -/
def gcn {β : Type} (A : (SN.Idx → EReal) → (SN.Idx → EReal))
    (St : (SN.Idx → EReal) → (SN.Idx → EReal) → (SN.Idx → EReal) → β)
    (x : SN.Idx → EReal) (W0 : SW.Idx → EReal) (b0 : SB.Idx → EReal) (W1 : SW.Idx → EReal) (b1 : SB.Idx → EReal)
    (W2 : SW.Idx → EReal) (b2 : SB.Idx → EReal) : β :=
  St (act (A (lin x W0)) b0)
     (act (A (lin (act (A (lin x W0)) b0) W1)) b1)
     (act (A (lin (act (A (lin (act (A (lin x W0)) b0) W1)) b1) W2)) b2)

end Cert.Spec

end
-- ==== Proof.KI.HostDefs.lean ====
import proofs.«412367_j16492674417057_1_alg».proof.Proof.Gen.KernelIdeal
import proofs.«412367_j16492674417057_1_alg».proof.Proof.Spec
import Idealize.ShloMosaic.PureOps.Ideal

noncomputable section

namespace Cert.KernelIdeal.Hand

open Idealize.ShloMosaic Idealize.SL.Sem
open Cert.KernelIdeal Cert.KernelIdeal.Gen

variable {F : FTy → Type} [FloatOps F]

def wrapIdx (i : IVec S850000 32) : IVec S850000 32 :=
  select (cmpi .slt i (broadcastInDim S850000 ![] bcast_S_S850000 (constantI S_ 32 0#32)))
    (addi i (broadcastInDim S850000 ![] bcast_S_S850000 (constantI S_ 32 50000#32))) i

def rowOf (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

def colOf (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

def degOf (ei : IVec S2x800000 32) : FVec F S50000 .f32 :=
  Host.scatterAdd scatter_S50000_S850000x1_S850000_n_0_0_1
    (broadcastInDim S50000 ![] bcast_S_S50000 (constant (F := F) S_ .f32 0x00000000#32))
    (broadcastInDim S850000x1 ![0] bcast_S850000_S850000x1_0 (colOf ei))
    (broadcastInDim S850000 ![] bcast_S_S850000 (constant (F := F) S_ .f32 0x3F800000#32))

def dinvOf (ei : IVec S2x800000 32) : FVec F S50000 .f32 :=
  select (cmpf (F := F) .ogt (degOf ei) (broadcastInDim S50000 ![] bcast_S_S50000 (constant (F := F) S_ .f32 0x00000000#32)))
    (Host.rsqrt (degOf (F := F) ei))
    (broadcastInDim S50000 ![] bcast_S_S50000 (constant (F := F) S_ .f32 0x00000000#32))

def normOf (ei : IVec S2x800000 32) : FVec F S850000 .f32 :=
  mulf (Host.gather gather_S50000_S850000x1_S850000_n_0_n_n_0_1_1 (dinvOf (F := F) ei) (broadcastInDim S850000x1 ![0] bcast_S850000_S850000x1_0 (wrapIdx (rowOf ei))))
       (Host.gather gather_S50000_S850000x1_S850000_n_0_n_n_0_1_1 (dinvOf (F := F) ei) (broadcastInDim S850000x1 ![0] bcast_S850000_S850000x1_0 (wrapIdx (colOf ei))))

def aggK (ei : IVec S2x800000 32) (hw : FVec F S50000x128 .f32) : FVec F S50000x128 .f32 :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 (colOf ei))
    (mulf (broadcastInDim S850000x128 ![0, 1] bcast_S850000x1_S850000x128_0_1 (broadcastInDim S850000x1 ![0] bcast_S850000_S850000x1_0 (normOf (F := F) ei)))
          (Host.gather gather_S50000x128_S850000x1_S850000x128_1_0_n_n_0_1_1128 hw (broadcastInDim S850000x1 ![0] bcast_S850000_S850000x1_0 (wrapIdx (rowOf ei)))))

def stackK (h1 h2 h3 : FVec F S50000x128 .f32) : FVec F S50000x3x128 .f32 :=
  concatenate S50000x3x128 1 [⟨S50000x1x128, broadcastInDim S50000x1x128 ![0, 2] bcast_S50000x128_S50000x1x128_0_2 h1⟩,
    ⟨S50000x1x128, broadcastInDim S50000x1x128 ![0, 2] bcast_S50000x128_S50000x1x128_0_2 h2⟩,
    ⟨S50000x1x128, broadcastInDim S50000x1x128 ![0, 2] bcast_S50000x128_S50000x1x128_0_2 h3⟩]
    concatenates_S50000x1x128_S50000x1x128_S50000x1x128_S50000x3x128_d1

end Cert.KernelIdeal.Hand

end
-- ==== Proof.KI.HostGraph.lean ====
import proofs.«412367_j16492674417057_1_alg».proof.Proof.KI.Fold
import proofs.«412367_j16492674417057_1_alg».proof.Proof.KI.HostDefs
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL.Sem
open Idealize.ShloMosaic.StableHlo
open Cert.KernelIdeal Cert.KernelIdeal.Gen

variable {F : FTy → Type} [FloatOps F]

variable (m : (ℓ : Loc nD τ sig) → Buf (Elt F) ℓ) (ρ : Dev nD → PrngReg)

theorem W1_main_v3 (c : Dev nD) :
    W1 m ρ c (Proc.devRef .tc main_v3) = rowOf (m ((c : Thread nD τ).loc main_arg1)) := by
  show StableHlo.after hostOps0 (W0 m ρ c) (Proc.devRef .tc main_v3) = _
  after_results
  rfl

theorem W1_main_v6 (c : Dev nD) :
    W1 m ρ c (Proc.devRef .tc main_v6) = colOf (m ((c : Thread nD τ).loc main_arg1)) := by
  show StableHlo.after hostOps0 (W0 m ρ c) (Proc.devRef .tc main_v6) = _
  after_results
  rfl

theorem W1_main_v12 (c : Dev nD) :
    W1 m ρ c (Proc.devRef .tc main_v12) = cmpf (F := F) .ogt (degOf (F := F) (m ((c : Thread nD τ).loc main_arg1)))
      (broadcastInDim S50000 ![] bcast_S_S50000 (constant (F := F) S_ .f32 0x00000000#32)) := by
  show StableHlo.after hostOps0 (W0 m ρ c) (Proc.devRef .tc main_v12) = _
  after_results
  rfl

theorem W1_main_v13 (c : Dev nD) :
    W1 m ρ c (Proc.devRef .tc main_v13) = Host.rsqrt (degOf (F := F) (m ((c : Thread nD τ).loc main_arg1))) := by
  show StableHlo.after hostOps0 (W0 m ρ c) (Proc.devRef .tc main_v13) = _
  after_results
  rfl

theorem W1_main_cst_2 (c : Dev nD) :
    W1 m ρ c (Proc.devRef .tc main_cst_2) = constant (F := F) S_ .f32 0x00000000#32 := by
  show StableHlo.after hostOps0 (W0 m ρ c) (Proc.devRef .tc main_cst_2) = _
  after_results

theorem W2_main_v14 (c : Dev nD) :
    W2 m ρ c (Proc.devRef .tc main_v14) = dinvOf (F := F) (m ((c : Thread nD τ).loc main_arg1)) := by
  show StableHlo.after hostOps0_1 (W1 m ρ c) (Proc.devRef .tc main_v14) = _
  generalize hV : W1 m ρ c = V1
  after_results
  subst hV
  rw [W1_main_v12, W1_main_v13, W1_main_cst_2]
  rfl

theorem W2_main_v3 (c : Dev nD) :
    W2 m ρ c (Proc.devRef .tc main_v3) = rowOf (m ((c : Thread nD τ).loc main_arg1)) :=
  (W2_of m ρ c main_v3 (by decide)).trans (W1_main_v3 m ρ c)

theorem W2_main_v6 (c : Dev nD) :
    W2 m ρ c (Proc.devRef .tc main_v6) = colOf (m ((c : Thread nD τ).loc main_arg1)) :=
  (W2_of m ρ c main_v6 (by decide)).trans (W1_main_v6 m ρ c)

theorem W3_main_v29 (c : Dev nD) :
    W3 m ρ c (Proc.devRef .tc main_v29) = normOf (F := F) (m ((c : Thread nD τ).loc main_arg1)) := by
  show StableHlo.after hostOps0_2 (W2 m ρ c) (Proc.devRef .tc main_v29) = _
  generalize hV : W2 m ρ c = V2
  after_results_simp
  subst hV
  rw [W2_main_v14, W2_main_v3, W2_main_v6]
  rfl

theorem W3_main_v3 (c : Dev nD) :
    W3 m ρ c (Proc.devRef .tc main_v3) = rowOf (m ((c : Thread nD τ).loc main_arg1)) :=
  (W3_of m ρ c main_v3 (by decide)).trans (W2_main_v3 m ρ c)

theorem W3_main_v6 (c : Dev nD) :
    W3 m ρ c (Proc.devRef .tc main_v6) = colOf (m ((c : Thread nD τ).loc main_arg1)) :=
  (W3_of m ρ c main_v6 (by decide)).trans (W2_main_v6 m ρ c)

abbrev Untouched (r : Ref sig .tc) : Prop :=
  r ∉ ([main_v30] : List (Ref sig .tc)) ∧ r ∉ hostOps1_W ∧ r ∉ hostOps1_1_W ∧ r ∉ hostOps1_2_W
    ∧ r ∉ ([main_v39_0, main_v39_1] : List (Ref sig .tc)) ∧ r ∉ hostOps2_W ∧ r ∉ hostOps2_1_W ∧ r ∉ hostOps2_2_W
    ∧ r ∉ ([main_v48_0, main_v48_1] : List (Ref sig .tc)) ∧ r ∉ hostOps3_W ∧ r ∉ hostOps3_1_W ∧ r ∉ hostOps3_2_W

theorem W4_carry (c : Dev nD) (r : Ref sig .tc) (h : Untouched r) :
    W4 m ρ c (Proc.devRef .tc r) = W3 m ρ c (Proc.devRef .tc r) :=
  W4_of m ρ c r h.1
theorem W5_carry (c : Dev nD) (r : Ref sig .tc) (h : Untouched r) :
    W5 m ρ c (Proc.devRef .tc r) = W3 m ρ c (Proc.devRef .tc r) :=
  (W5_of m ρ c r h.2.1).trans (W4_carry m ρ c r h)
theorem W6_carry (c : Dev nD) (r : Ref sig .tc) (h : Untouched r) :
    W6 m ρ c (Proc.devRef .tc r) = W3 m ρ c (Proc.devRef .tc r) :=
  (W6_of m ρ c r h.2.2.1).trans (W5_carry m ρ c r h)
theorem W7_carry (c : Dev nD) (r : Ref sig .tc) (h : Untouched r) :
    W7 m ρ c (Proc.devRef .tc r) = W3 m ρ c (Proc.devRef .tc r) :=
  (W7_of m ρ c r h.2.2.2.1).trans (W6_carry m ρ c r h)
theorem W8_carry (c : Dev nD) (r : Ref sig .tc) (h : Untouched r) :
    W8 m ρ c (Proc.devRef .tc r) = W3 m ρ c (Proc.devRef .tc r) :=
  (W8_of m ρ c r h.2.2.2.2.1).trans (W7_carry m ρ c r h)
theorem W9_carry (c : Dev nD) (r : Ref sig .tc) (h : Untouched r) :
    W9 m ρ c (Proc.devRef .tc r) = W3 m ρ c (Proc.devRef .tc r) :=
  (W9_of m ρ c r h.2.2.2.2.2.1).trans (W8_carry m ρ c r h)
theorem W10_carry (c : Dev nD) (r : Ref sig .tc) (h : Untouched r) :
    W10 m ρ c (Proc.devRef .tc r) = W3 m ρ c (Proc.devRef .tc r) :=
  (W10_of m ρ c r h.2.2.2.2.2.2.1).trans (W9_carry m ρ c r h)
theorem W11_carry (c : Dev nD) (r : Ref sig .tc) (h : Untouched r) :
    W11 m ρ c (Proc.devRef .tc r) = W3 m ρ c (Proc.devRef .tc r) :=
  (W11_of m ρ c r h.2.2.2.2.2.2.2.1).trans (W10_carry m ρ c r h)
theorem W12_carry (c : Dev nD) (r : Ref sig .tc) (h : Untouched r) :
    W12 m ρ c (Proc.devRef .tc r) = W3 m ρ c (Proc.devRef .tc r) :=
  (W12_of m ρ c r h.2.2.2.2.2.2.2.2.1).trans (W11_carry m ρ c r h)
theorem W13_carry (c : Dev nD) (r : Ref sig .tc) (h : Untouched r) :
    W13 m ρ c (Proc.devRef .tc r) = W3 m ρ c (Proc.devRef .tc r) :=
  (W13_of m ρ c r h.2.2.2.2.2.2.2.2.2.1).trans (W12_carry m ρ c r h)
theorem W14_carry (c : Dev nD) (r : Ref sig .tc) (h : Untouched r) :
    W14 m ρ c (Proc.devRef .tc r) = W3 m ρ c (Proc.devRef .tc r) :=
  (W14_of m ρ c r h.2.2.2.2.2.2.2.2.2.2.1).trans (W13_carry m ρ c r h)
theorem W15_carry (c : Dev nD) (r : Ref sig .tc) (h : Untouched r) :
    W15 m ρ c (Proc.devRef .tc r) = W3 m ρ c (Proc.devRef .tc r) :=
  (W15_of m ρ c r h.2.2.2.2.2.2.2.2.2.2.2).trans (W14_carry m ρ c r h)

theorem untouched_main_v3 : Untouched main_v3 := by decide
theorem untouched_main_v6 : Untouched main_v6 := by decide
theorem untouched_main_v29 : Untouched main_v29 := by decide

end Cert.KernelIdeal.Hand

end
-- ==== Proof.KI.HostBias.lean ====
import proofs.«412367_j16492674417057_1_alg».proof.Proof.KI.Fold
import proofs.«412367_j16492674417057_1_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen

theorem bias_row_read {α : Type} (b : Cert.Spec.SB.Idx → α) :
    (fun j : Cert.Spec.SB.Idx => shapeCast S1x128 b shapeCasts_S128_S1x128 (ix2 0 (j 0))) = b := by
  funext j
  exact (shapeCast_a_1a_apply (a := 128) b shapeCasts_S128_S1x128 0 (j 0)).trans (congrArg b (eq_ix1 j).symm)

theorem act_bias_row (a : Cert.Spec.SN.Idx → EReal) (b : Cert.Spec.SB.Idx → EReal) (r : S1x128.Idx → EReal)
    (hr : r = shapeCast S1x128 b shapeCasts_S128_S1x128) :
    Cert.Spec.act a (fun j => r (ix2 0 (j 0))) = Cert.Spec.act a b := by
  subst hr
  exact congrArg (Cert.Spec.act a) (bias_row_read b)

section Carried

variable {F : FTy → Type} [FloatOps F]
variable (m : (ℓ : Loc nD τ sig) → Buf (Elt F) ℓ) (ρ : Dev nD → PrngReg)

theorem W3_main_arg0 (c : Dev nD) : W3 m ρ c (Proc.devRef .tc main_arg0) = m ((c : Thread nD τ).loc main_arg0) := keep3 m ρ c main_arg0 (by decide)
theorem W3_main_arg2 (c : Dev nD) : W3 m ρ c (Proc.devRef .tc main_arg2) = m ((c : Thread nD τ).loc main_arg2) := keep3 m ρ c main_arg2 (by decide)
theorem W7_main_arg4 (c : Dev nD) : W7 m ρ c (Proc.devRef .tc main_arg4) = m ((c : Thread nD τ).loc main_arg4) := keep7 m ρ c main_arg4 (by decide)
theorem W11_main_arg6 (c : Dev nD) : W11 m ρ c (Proc.devRef .tc main_arg6) = m ((c : Thread nD τ).loc main_arg6) := keep11 m ρ c main_arg6 (by decide)
theorem W6_main_arg3 (c : Dev nD) : W6 m ρ c (Proc.devRef .tc main_arg3) = m ((c : Thread nD τ).loc main_arg3) := keep6 m ρ c main_arg3 (by decide)
theorem W10_main_arg5 (c : Dev nD) : W10 m ρ c (Proc.devRef .tc main_arg5) = m ((c : Thread nD τ).loc main_arg5) := keep10 m ρ c main_arg5 (by decide)
theorem W14_main_arg7 (c : Dev nD) : W14 m ρ c (Proc.devRef .tc main_arg7) = m ((c : Thread nD τ).loc main_arg7) := keep14 m ρ c main_arg7 (by decide)
theorem W7_main_v38 (c : Dev nD) :
    W7 m ρ c (Proc.devRef .tc main_v38) = shapeCast S1x128 (m ((c : Thread nD τ).loc main_arg3)) shapeCasts_S128_S1x128 := by
  have e : W7 m ρ c (Proc.devRef .tc main_v38)
      = shapeCast S1x128 (W6 m ρ c (Proc.devRef .tc main_arg3)) shapeCasts_S128_S1x128 := by
    show StableHlo.after hostOps1_2 (W6 m ρ c) (Proc.devRef .tc main_v38) = _
    after_results
    rfl
  rw [e, W6_main_arg3]
theorem W11_main_v47 (c : Dev nD) :
    W11 m ρ c (Proc.devRef .tc main_v47) = shapeCast S1x128 (m ((c : Thread nD τ).loc main_arg5)) shapeCasts_S128_S1x128 := by
  have e : W11 m ρ c (Proc.devRef .tc main_v47)
      = shapeCast S1x128 (W10 m ρ c (Proc.devRef .tc main_arg5)) shapeCasts_S128_S1x128 := by
    show StableHlo.after hostOps2_2 (W10 m ρ c) (Proc.devRef .tc main_v47) = _
    after_results
    rfl
  rw [e, W10_main_arg5]
theorem W15_main_v56 (c : Dev nD) :
    W15 m ρ c (Proc.devRef .tc main_v56) = shapeCast S1x128 (m ((c : Thread nD τ).loc main_arg7)) shapeCasts_S128_S1x128 := by
  have e : W15 m ρ c (Proc.devRef .tc main_v56)
      = shapeCast S1x128 (W14 m ρ c (Proc.devRef .tc main_arg7)) shapeCasts_S128_S1x128 := by
    show StableHlo.after hostOps3_2 (W14 m ρ c) (Proc.devRef .tc main_v56) = _
    after_results
    rfl
  rw [e, W14_main_arg7]
end Carried

section AtIdeal

variable (m : (ℓ : Loc nD τ sig) → Buf (Elt Ideal) ℓ) (ρ : Dev nD → PrngReg)

theorem act_V7_bias (a : Cert.Spec.SN.Idx → EReal) (c : Dev nD) :
    Cert.Spec.act a (fun j => V7 m ρ c main_v38 (ix2 0 (j 0))) = Cert.Spec.act a (m ((c : Thread nD τ).loc main_arg3)) :=
  act_bias_row a _ _ (W7_main_v38 m ρ c)
theorem act_V11_bias (a : Cert.Spec.SN.Idx → EReal) (c : Dev nD) :
    Cert.Spec.act a (fun j => V11 m ρ c main_v47 (ix2 0 (j 0))) = Cert.Spec.act a (m ((c : Thread nD τ).loc main_arg5)) :=
  act_bias_row a _ _ (W11_main_v47 m ρ c)
theorem act_V15_bias (a : Cert.Spec.SN.Idx → EReal) (c : Dev nD) :
    Cert.Spec.act a (fun j => V15 m ρ c main_v56 (ix2 0 (j 0))) = Cert.Spec.act a (m ((c : Thread nD τ).loc main_arg7)) :=
  act_bias_row a _ _ (W15_main_v56 m ρ c)

end AtIdeal

end Cert.KernelIdeal.Hand

end
-- ==== Proof.KI.TakeMask.lean ====
import proofs.«412367_j16492674417057_1_alg».proof.Proof.KI.HostDefs
import proofs.«412367_j16492674417057_1_alg».proof.Proof.Gen.KernelIdeal.Launch
import proofs.«412367_j16492674417057_1_alg».proof.Proof.Gen.Pre_finite_inputs
import proofs.«412367_j16492674417057_1_alg».proof.Defs
import Idealize.ShloMosaic.PureOps.Ideal
import Idealize.ShloMosaic.Lib.ReduceAll
import Idealize.ShloMosaic.Lib.ValueIdx
import Idealize.ShloMosaic.Lib.Pipeline.Value
import Idealize.ShloMosaic.Lib.StableHlo.Predicate
import Idealize.ShloMosaic.Lib.StableHlo.Run

set_option maxRecDepth 16384

noncomputable section

namespace Cert.KernelIdeal.Hand

open Idealize.ShloMosaic Idealize.SL.Sem
open Cert.KernelIdeal Cert.KernelIdeal.Gen

variable {F : FTy → Type} [FloatOps F]

namespace TakeMask

theorem word_inRange (w : BitVec 32) (h0 : IntOp.cmpi .sge w 0#32 = 1#1) (h1 : IntOp.cmpi .slt w 50000#32 = 1#1) :
    w.toNat < 50000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (50000#32 : BitVec 32).toInt = 50000 := by decide
  rw [e0] at h0
  rw [e1] at h1
  have h32 := w.isLt
  unfold BitVec.toInt at h0 h1
  split at h1 <;> omega

end TakeMask

open TakeMask

def rowsInRange (ei : IVec S2x800000 32) : Prop :=
  ∀ e : S800000.Idx, (shapeCast S800000 (extractStridedSlice S1x800000 ![0, 0] ei slices_S2x800000_S1x800000_0_0) shapeCasts_S1x800000_S800000 e).toNat < 50000

theorem rows_of_pre (m : (ℓ : Loc nD τ sig) → Buf (Elt Ideal) ℓ) (h : Cert.Pre_KernelIdeal m) :
    ∀ c : Dev nD, rowsInRange (m ((c.tc : Thread nD τ).loc main_arg1)) := by
  intro c e
  haveI : Subsingleton S_.Idx := ⟨fun a b => funext fun d => d.elim0⟩
  have h0 := congrFun (h c) ValueIdx.ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 e
  obtain ⟨ha, hb⟩ := IntOp.andi_eq_one.1 h2
  exact word_inRange _ ha hb

def takeMask (idx : IVec S850000 32) : IVec S850000 1 :=
  Host.reduce IntOp.andi
    (andi (cmpi .sge (broadcastInDim S850000x1 ![0] bcast_S850000_S850000x1_0 (wrapIdx idx))
                     (broadcastInDim S850000x1 ![] bcast_S_S850000x1 (constantI S_ 32 0#32)))
          (cmpi .sle (broadcastInDim S850000x1 ![0] bcast_S850000_S850000x1_0 (wrapIdx idx))
                     (broadcastInDim S850000x1 ![0, 1] bcast_S1x1_S850000x1_0_1 (broadcastInDim S1x1 ![1] bcast_S1_S1x1_1 (constantI S1 32 49999#32)))))
    (constantI S_ 1 1#1) reducesTo_S850000x1_S850000_d1 h_S_

def takeK (hw : FVec F S50000x128 .f32) (idx : IVec S850000 32) : FVec F S850000x128 .f32 :=
  let c : IVec S_ 32 := constantI S_ 32 0#32
  let v0 : IVec S850000 32 := broadcastInDim S850000 ![] bcast_S_S850000 c
  let v1 : IVec S850000 1 := cmpi .slt idx v0
  let c_0 : IVec S_ 32 := constantI S_ 32 50000#32
  let v2 : IVec S850000 32 := broadcastInDim S850000 ![] bcast_S_S850000 c_0
  let v3 : IVec S850000 32 := addi idx v2
  let v4 : IVec S850000 32 := select v1 v3 idx
  let v5 : IVec S850000x1 32 := broadcastInDim S850000x1 ![0] bcast_S850000_S850000x1_0 v4
  let c_1 : IVec S1 32 := constantI S1 32 49999#32
  let c_2 : IVec S_ 32 := constantI S_ 32 0#32
  let v6 : IVec S850000x1 32 := broadcastInDim S850000x1 ![] bcast_S_S850000x1 c_2
  let v7 : IVec S850000x1 1 := cmpi .sge v5 v6
  let v8 : IVec S1x1 32 := broadcastInDim S1x1 ![1] bcast_S1_S1x1_1 c_1
  let v9 : IVec S850000x1 32 := broadcastInDim S850000x1 ![0, 1] bcast_S1x1_S850000x1_0_1 v8
  let v10 : IVec S850000x1 1 := cmpi .sle v5 v9
  let v11 : IVec S850000x1 1 := andi v7 v10
  let c_3 : IVec S_ 1 := constantI S_ 1 1#1
  let v12 : IVec S850000 1 := Host.reduce IntOp.andi v11 c_3 reducesTo_S850000x1_S850000_d1 h_S_
  let v13 : FVec F S850000x128 .f32 := Host.gather gather_S50000x128_S850000x1_S850000x128_1_0_n_n_0_1_1128 hw v5
  let v14 : IVec S850000x128 1 := broadcastInDim S850000x128 ![0] bcast_S850000_S850000x128_0 v12
  let cst : FVec F S_ .f32 := constant (F := F) S_ .f32 0x7FC00000#32
  let v15 : FVec F S850000x128 .f32 := broadcastInDim S850000x128 ![] bcast_S_S850000x128 cst
  select v14 v13 v15

theorem takeK_eq (hw : FVec F S50000x128 .f32) (idx : IVec S850000 32) :
    takeK hw idx = select (broadcastInDim S850000x128 ![0] bcast_S850000_S850000x128_0 (takeMask idx))
      (Host.gather gather_S50000x128_S850000x1_S850000x128_1_0_n_n_0_1_1128 hw (broadcastInDim S850000x1 ![0] bcast_S850000_S850000x1_0 (wrapIdx idx)))
      (broadcastInDim S850000x128 ![] bcast_S_S850000x128 (constant (F := F) S_ .f32 0x7FC00000#32)) := rfl

namespace TakeMask

theorem ofBuf_toBuf {Val : EltTy → Type} {T : BufTy} (x : StableHlo.TRef sig T) (v : T.Contents Val) :
    x.ofBuf (x.toBuf v) = v := by
  obtain ⟨r, rfl, _, _⟩ := x
  rfl

set_option maxHeartbeats 4000000 in
theorem take1_cast (W : Valuation τ sig (Elt F)) :
    StableHlo.after hostOps1_1 W (Proc.devRef .tc main_v32)
      = (StableHlo.TRef.of main_v32 : StableHlo.TRef sig ⟨S850000x128, .f32⟩).toBuf
          (takeK ((StableHlo.TRef.of main_v30 : StableHlo.TRef sig ⟨S50000x128, .f32⟩).ofBuf (W (Proc.devRef .tc main_v30)))
                 ((StableHlo.TRef.of main_v3 : StableHlo.TRef sig ⟨S850000, .i32⟩).ofBuf (W (Proc.devRef .tc main_v3)))) := by
  after_results_simp
  simp only [ofBuf_toBuf]
  rfl

theorem leaf3 (W : Valuation τ sig (Elt F)) :
    (StableHlo.TRef.of main_v3 : StableHlo.TRef sig ⟨S850000, .i32⟩).ofBuf (W (Proc.devRef .tc main_v3)) = (W (Proc.devRef .tc main_v3) : IVec S850000 32) := rfl

theorem leaf_main_v30 (W : Valuation τ sig (Elt F)) :
    (StableHlo.TRef.of main_v30 : StableHlo.TRef sig ⟨S50000x128, .f32⟩).ofBuf (W (Proc.devRef .tc main_v30)) = (W (Proc.devRef .tc main_v30) : FVec F S50000x128 .f32) := rfl

theorem out_main_v32 (x : FVec F S850000x128 .f32) :
    (StableHlo.TRef.toBuf (Val := Elt F) (StableHlo.TRef.of main_v32 : StableHlo.TRef sig ⟨S850000x128, .f32⟩) x : FVec F S850000x128 .f32) = x := rfl

end TakeMask

theorem take1_eq (W : Valuation τ sig (Elt F)) :
    (StableHlo.after hostOps1_1 W (Proc.devRef .tc main_v32) : FVec F S850000x128 .f32)
      = takeK (W (Proc.devRef .tc main_v30)) (W (Proc.devRef .tc main_v3)) := by
  rw [take1_cast, leaf3, leaf_main_v30]
  exact out_main_v32 _

namespace TakeMask

set_option maxHeartbeats 4000000 in
theorem take2_cast (W : Valuation τ sig (Elt F)) :
    StableHlo.after hostOps2_1 W (Proc.devRef .tc main_v41)
      = (StableHlo.TRef.of main_v41 : StableHlo.TRef sig ⟨S850000x128, .f32⟩).toBuf
          (takeK ((StableHlo.TRef.of main_v39_1 : StableHlo.TRef sig ⟨S50000x128, .f32⟩).ofBuf (W (Proc.devRef .tc main_v39_1)))
                 ((StableHlo.TRef.of main_v3 : StableHlo.TRef sig ⟨S850000, .i32⟩).ofBuf (W (Proc.devRef .tc main_v3)))) := by
  after_results_simp
  simp only [ofBuf_toBuf]
  rfl

theorem leaf_main_v39_1 (W : Valuation τ sig (Elt F)) :
    (StableHlo.TRef.of main_v39_1 : StableHlo.TRef sig ⟨S50000x128, .f32⟩).ofBuf (W (Proc.devRef .tc main_v39_1)) = (W (Proc.devRef .tc main_v39_1) : FVec F S50000x128 .f32) := rfl

theorem out_main_v41 (x : FVec F S850000x128 .f32) :
    (StableHlo.TRef.toBuf (Val := Elt F) (StableHlo.TRef.of main_v41 : StableHlo.TRef sig ⟨S850000x128, .f32⟩) x : FVec F S850000x128 .f32) = x := rfl

end TakeMask

theorem take2_eq (W : Valuation τ sig (Elt F)) :
    (StableHlo.after hostOps2_1 W (Proc.devRef .tc main_v41) : FVec F S850000x128 .f32)
      = takeK (W (Proc.devRef .tc main_v39_1)) (W (Proc.devRef .tc main_v3)) := by
  rw [take2_cast, leaf3, leaf_main_v39_1]
  exact out_main_v41 _

namespace TakeMask

set_option maxHeartbeats 4000000 in
theorem take3_cast (W : Valuation τ sig (Elt F)) :
    StableHlo.after hostOps3_1 W (Proc.devRef .tc main_v50)
      = (StableHlo.TRef.of main_v50 : StableHlo.TRef sig ⟨S850000x128, .f32⟩).toBuf
          (takeK ((StableHlo.TRef.of main_v48_1 : StableHlo.TRef sig ⟨S50000x128, .f32⟩).ofBuf (W (Proc.devRef .tc main_v48_1)))
                 ((StableHlo.TRef.of main_v3 : StableHlo.TRef sig ⟨S850000, .i32⟩).ofBuf (W (Proc.devRef .tc main_v3)))) := by
  after_results_simp
  simp only [ofBuf_toBuf]
  rfl

theorem leaf_main_v48_1 (W : Valuation τ sig (Elt F)) :
    (StableHlo.TRef.of main_v48_1 : StableHlo.TRef sig ⟨S50000x128, .f32⟩).ofBuf (W (Proc.devRef .tc main_v48_1)) = (W (Proc.devRef .tc main_v48_1) : FVec F S50000x128 .f32) := rfl

theorem out_main_v50 (x : FVec F S850000x128 .f32) :
    (StableHlo.TRef.toBuf (Val := Elt F) (StableHlo.TRef.of main_v50 : StableHlo.TRef sig ⟨S850000x128, .f32⟩) x : FVec F S850000x128 .f32) = x := rfl

end TakeMask

theorem take3_eq (W : Valuation τ sig (Elt F)) :
    (StableHlo.after hostOps3_1 W (Proc.devRef .tc main_v50) : FVec F S850000x128 .f32)
      = takeK (W (Proc.devRef .tc main_v48_1)) (W (Proc.devRef .tc main_v3)) := by
  rw [take3_cast, leaf3, leaf_main_v48_1]
  exact out_main_v50 _

namespace TakeMask

theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; rfl
    rw [List.foldl_cons, e]
    exact foldl_andi_one f l (fun n hn => h n (List.mem_cons_of_mem _ hn))

theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

theorem wrap_word (w : BitVec 32) (hw : w.toNat < 50000) :
    Scalar.select (IntOp.cmpi .slt w 0#32) (IntOp.addi w 50000#32) w = w := by
  have hn : ¬ IntOp.cmpi .slt w 0#32 = 1#1 := by
    rw [StableHlo.Predicate.slt_iff_toNat (by omega) (by decide)]
    have : (0#32 : BitVec 32).toNat = 0 := by decide
    omega
  exact if_neg hn

theorem test_word (w : BitVec 32) (hw : w.toNat < 50000) :
    IntOp.andi (IntOp.cmpi .sge w 0#32) (IntOp.cmpi .sle w 49999#32) = 1#1 := by
  rw [IntOp.andi_eq_one, StableHlo.Predicate.sge_iff_toNat (by omega) (by decide),
    StableHlo.Predicate.sle_iff_toNat (by omega) (by decide)]
  have e0 : (0#32 : BitVec 32).toNat = 0 := by decide
  have e1 : (49999#32 : BitVec 32).toNat = 49999 := by decide
  omega

theorem rowOf_lt (ei : IVec S2x800000 32) (h : rowsInRange ei) (j : S850000.Idx) : (rowOf ei j).toNat < 50000 := by
  have hlt : (j 0).val < 850000 := (j 0).isLt
  by_cases hj : (j 0).val < 800000
  · have e := concatenate_pair_apply_left (t := S850000) (s₁ := S800000) (s₂ := S50000) 0
      (shapeCast S800000 (extractStridedSlice S1x800000 ![0, 0] ei slices_S2x800000_S1x800000_0_0) shapeCasts_S1x800000_S800000)
      (iotaInDim S50000 32 0) concatenates_S800000_S50000_S850000_d0 j rfl (ValueIdx.ix1 ⟨(j 0).val, hj⟩)
      (fun b => by obtain rfl : b = 0 := Subsingleton.elim _ _; rfl)
    unfold rowOf
    rw [e]
    exact h _
  · have e := concatenate_pair_apply_right (t := S850000) (s₁ := S800000) (s₂ := S50000) 0
      (shapeCast S800000 (extractStridedSlice S1x800000 ![0, 0] ei slices_S2x800000_S1x800000_0_0) shapeCasts_S1x800000_S800000)
      (iotaInDim S50000 32 0) concatenates_S800000_S50000_S850000_d0 j rfl rfl
      (ValueIdx.ix1 ⟨(j 0).val - 800000, by omega⟩)
      (fun b hb => absurd (Subsingleton.elim _ _) hb)
      (by show (j 0).val - 800000 + 800000 = (j 0).val; omega)
    unfold rowOf
    rw [e]
    show (BitVec.ofNat 32 ((j 0).val - 800000)).toNat < 50000
    rw [BitVec.toNat_ofNat]
    omega

theorem wrapIdx_rowOf (ei : IVec S2x800000 32) (h : rowsInRange ei) : wrapIdx (rowOf ei) = rowOf ei :=
  funext fun j => wrap_word (rowOf ei j) (rowOf_lt ei h j)

theorem takeMask_rowOf (ei : IVec S2x800000 32) (h : rowsInRange ei) (p : S850000.Idx) : takeMask (rowOf ei) p = 1#1 := by
  unfold takeMask
  refine reduce_andi_one _ _ _ _ rfl (fun i => ?_) p
  rw [wrapIdx_rowOf ei h]
  exact test_word _ (rowOf_lt ei h _)

end TakeMask

theorem take_eq_gather (ei : IVec S2x800000 32) (h : rowsInRange ei) (hw : FVec F S50000x128 .f32) :
    takeK hw (rowOf ei) = Host.gather gather_S50000x128_S850000x1_S850000x128_1_0_n_n_0_1_1128 hw
      (broadcastInDim S850000x1 ![0] bcast_S850000_S850000x1_0 (wrapIdx (rowOf ei))) := by
  rw [takeK_eq]
  funext j
  rw [ValueIdx.select_apply]
  have hm : broadcastInDim S850000x128 ![0] bcast_S850000_S850000x128_0 (takeMask (rowOf ei)) j = 1#1 :=
    takeMask_rowOf ei h _
  rw [hm]
  exact ValueIdx.select_one _ _

end Cert.KernelIdeal.Hand

end
-- ==== Proof.KI.ValLin.lean ====
import proofs.«412367_j16492674417057_1_alg».proof.Proof.KI.Region0
import proofs.«412367_j16492674417057_1_alg».proof.Proof.KI.Region1
import proofs.«412367_j16492674417057_1_alg».proof.Proof.KI.Region2
import proofs.«412367_j16492674417057_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Ten blocks of 5000 rows tile the 50000 rows: row r lies in block r / 5000, whatever the column. -/
theorem rows_cover {N : Nat} (hN : N = 10) (idx : Fin N → Fin 2 → Nat) (h : ∀ t, idx t 0 = t.val ∧ idx t 1 = 0) (i : S50000x128.Idx) :
    ∃ t : Fin N, ∀ a : Fin 2, idx t a * S5000x128.size a ≤ (i a).val ∧ (i a).val < idx t a * S5000x128.size a + S5000x128.size a := by
  subst hN
  have hi0 : (i 0).val < 50000 := (i 0).isLt
  have hi1 : (i 1).val < 128 := (i 1).isLt
  have ht : (i 0).val / 5000 < 10 := by omega
  obtain ⟨e0, e1⟩ := h ⟨(i 0).val / 5000, ht⟩
  refine ⟨⟨(i 0).val / 5000, ht⟩, fun a => ?_⟩
  match a with
  | ⟨0, _⟩ => show idx _ (0 : Fin 2) * 5000 ≤ (i 0).val ∧ (i 0).val < idx _ (0 : Fin 2) * 5000 + 5000; rw [e0]; show (i 0).val / 5000 * 5000 ≤ _ ∧ _ < (i 0).val / 5000 * 5000 + 5000; omega
  | ⟨1, _⟩ => show idx _ (1 : Fin 2) * 128 ≤ (i 1).val ∧ (i 1).val < idx _ (1 : Fin 2) * 128 + 128; rw [e1]; omega

theorem lin_hz : (![0, 0] : Fin 2 → Nat) = fun _ => 0 := funext fun a => by fin_cases a <;> rfl

theorem lin_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lin_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem lin_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem lin_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lin_matmul_apply (x : FVec Ideal S5000x128 .bf16) (w : FVec Ideal S128x128 .bf16) (j : S5000x128.Idx) :
    matmul dot_S5000x128_S128x128_S5000x128_1_0_0_1_n_n none x w (constant (F := Ideal) S5000x128 .f32 0x00000000#32) j
      = ∑ k : Fin 128, x (ix2 (n0 := 5000) (n1 := 128) (j 0) k) * w (ix2 (n0 := 128) (n1 := 128) k (j 1)) := by
  refine (Ideal.matmul_constant_zero_apply dot_S5000x128_S128x128_S5000x128_1_0_0_1_n_n none x w j).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = ix2 (n0 := 5000) (n1 := 128) (j 0) k := funext fun a => Fin.ext (by
    match a with
    | ⟨0, _⟩ => exact lin_lhs_0 _ _
    | ⟨1, _⟩ => exact (lin_lhs_1 _ _).trans hk)
  have er : dot_S5000x128_S128x128_S5000x128_1_0_0_1_n_n.rhsIdx j ((contrEquiv1 dot_S5000x128_S128x128_S5000x128_1_0_0_1_n_n 128 rfl rfl).symm k) = ix2 (n0 := 128) (n1 := 128) k (j 1) := funext fun a => Fin.ext (by
    match a with
    | ⟨0, _⟩ => exact (lin_rhs_0 _ _).trans hk
    | ⟨1, _⟩ => exact lin_rhs_1 _ _)
  rw [el, er]

theorem lin_pay0_apply (x : Vec Ideal S5000x128 .f32) (w : Vec Ideal S128x128 .f32) (j : S5000x128.Idx) :
    k0_pay1 (F := Ideal) x w j
      = ∑ k : Fin 128, x (ix2 (n0 := 5000) (n1 := 128) (j 0) k) * w (ix2 (n0 := 128) (n1 := 128) k (j 1)) := by
  unfold k0_pay1
  exact lin_matmul_apply _ _ j

theorem lin_act_apply (x0 : Vec Ideal S5000x128 .f32) (x1 : Vec Ideal S1x128 .f32) (p : Fin 5000) (k : Fin 128) :
    k1_pay1 (F := Ideal) x0 x1 (ix2 (n0 := 5000) (n1 := 128) p k)
      = Ideal.tanh (x0 (ix2 (n0 := 5000) (n1 := 128) p k) + x1 (ix2 (n0 := 1) (n1 := 128) 0 k)) := by
  unfold k1_pay1
  show Ideal.tanh (shapeCast S5000x128 x0 shapeCasts_S5000x128_S5000x128 (ix2 p k)
      + broadcastTo S5000x128 (shapeCast S1x128 x1 shapeCasts_S1x128_S1x128) broadcasts_S1x128_S5000x128 (ix2 p k)) = _
  rw [shapeCast_self, shapeCast_self, broadcastTo_1b_ab_apply]

theorem lin_pay1_apply (x0 : Vec Ideal S5000x128 .f32) (x1 : Vec Ideal S1x128 .f32) (x2 : Vec Ideal S128x128 .f32) (j : S5000x128.Idx) :
    k1_pay2 (F := Ideal) x0 x1 x2 j
      = ∑ k : Fin 128, Ideal.tanh (x0 (ix2 (n0 := 5000) (n1 := 128) (j 0) k) + x1 (ix2 (n0 := 1) (n1 := 128) 0 k))
          * x2 (ix2 (n0 := 128) (n1 := 128) k (j 1)) := by
  unfold k1_pay2
  refine (lin_matmul_apply _ _ j).trans ?_
  refine Finset.sum_congr rfl fun k _ => ?_
  exact congrArg (· * x2 (ix2 (n0 := 128) (n1 := 128) k (j 1))) (lin_act_apply x0 x1 (j 0) k)

theorem lin_read (X : Cert.Spec.SN.Idx → EReal) (W : Cert.Spec.SW.Idx → EReal)
    (x : Vec Ideal S5000x128 .f32) (w : Vec Ideal S128x128 .f32) (j : S5000x128.Idx) (i : Cert.Spec.SN.Idx)
    (hx : ∀ k : Fin 128, x (ix2 (n0 := 5000) (n1 := 128) (j 0) k) = X (ix2 (n0 := 50000) (n1 := 128) (i 0) k))
    (hw : ∀ k : Fin 128, w (ix2 (n0 := 128) (n1 := 128) k (j 1)) = W (ix2 (n0 := 128) (n1 := 128) k (i 1))) :
    k0_pay1 (F := Ideal) x w j = Cert.Spec.lin X W i := by
  rw [lin_pay0_apply]
  unfold Cert.Spec.lin
  exact Finset.sum_congr rfl fun k _ => by rw [hx k, hw k]

theorem lin_read_act (A : Cert.Spec.SN.Idx → EReal) (B : Cert.Spec.SB.Idx → EReal) (W : Cert.Spec.SW.Idx → EReal)
    (x0 : Vec Ideal S5000x128 .f32) (x1 : Vec Ideal S1x128 .f32) (x2 : Vec Ideal S128x128 .f32)
    (j : S5000x128.Idx) (i : Cert.Spec.SN.Idx)
    (h0 : ∀ k : Fin 128, x0 (ix2 (n0 := 5000) (n1 := 128) (j 0) k) = A (ix2 (n0 := 50000) (n1 := 128) (i 0) k))
    (h1 : ∀ k : Fin 128, x1 (ix2 (n0 := 1) (n1 := 128) 0 k) = B (ix1 (n := 128) k))
    (h2 : ∀ k : Fin 128, x2 (ix2 (n0 := 128) (n1 := 128) k (j 1)) = W (ix2 (n0 := 128) (n1 := 128) k (i 1))) :
    k1_pay2 (F := Ideal) x0 x1 x2 j = Cert.Spec.lin (Cert.Spec.act A B) W i := by
  rw [lin_pay1_apply]
  unfold Cert.Spec.lin Cert.Spec.act
  exact Finset.sum_congr rfl fun k _ => by rw [h0 k, h1 k, h2 k]

theorem lin_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lin_flushed0 (c : Dev nD) (t : Fin cfg0.N) :
    (dat0 (F := Ideal) V c).flushed 2 t
      = ((cfg0.win 2).blk t).view.read (Elt Ideal) (Cert.Spec.lin (V c main_arg0) (V c main_arg2)) := by
  show (cfg0.win 2).cut (grid0.coords t) ((dat0 (F := Ideal) V c).after 2 t) = _
  rw [after0_2]
  unfold out0_2
  rw [View.canon_unit_zero lin_hz]
  simp only [View.ld_unit_zero (S := S5000x128) lin_hz, View.ld_unit_zero (S := S128x128) lin_hz]
  obtain ⟨e0, e1, e2, e3, e4, e5⟩ := lin_idx0 t
  funext j
  refine lin_read (V c main_arg0) (V c main_arg2) (iblk0 V c 0 t) (iblk0 V c 1 t)
    ((cfg0.win 2).xinj (grid0.coords t) j) (((cfg0.win 2).blk t).view.emb j) (fun k => ?_) (fun k => ?_)
  · show V c main_arg0 (((cfg0.win 0).blk t).view.emb (ix2 (n0 := 5000) (n1 := 128) (j 0) k)) = V c main_arg0 (ix2 (n0 := 50000) (n1 := 128) ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 (n0 := 128) (n1 := 128) k (j 1))) = V c main_arg2 (ix2 (n0 := 128) (n1 := 128) k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

theorem lin_cover0 (i : S50000x128.Idx) :
    ∃ t : Fin cfg0.N, (cfg0.win 2).flush t = true ∧ i ∈ ((cfg0.win 2).blk t).view.set := by
  obtain ⟨t, ht⟩ := rows_cover (N := cfg0.N) N_0 win0_2.index (fun t => ⟨(lin_idx0 t).2.2.2.2.1, (lin_idx0 t).2.2.2.2.2⟩) i
  refine ⟨t, flush0_2 _, ?_⟩
  show i ∈ ((View.whole main_v30).slice (win0_2.rect t)).set
  rw [View.set_slice_whole, Rect.mem_set_unit]
  exact ht

theorem final0_2 (c : Dev nD) :
    (dat0 (F := Ideal) V c).arrAt 2 cfg0.N = Cert.Spec.lin (V c main_arg0) (V c main_arg2) :=
  (dat0 (F := Ideal) V c).arrAt_eq_of_cover 2 _ (fun t _ => lin_flushed0 V c t) lin_cover0

theorem lin_idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_4.index t (0 : Fin 2) = t.val ∧ win1_4.index t (1 : Fin 2) = 0 :=
  (by decide +kernel : ∀ t : Fin grid1.N, _)

theorem lin_flushed1 (c : Dev nD) (t : Fin cfg1.N) :
    (dat1 (F := Ideal) V c).flushed 4 t = ((cfg1.win 4).blk t).view.read (Elt Ideal)
      (Cert.Spec.lin (Cert.Spec.act (V c main_v37) (fun j => V c main_v38 (ix2 (n0 := 1) (n1 := 128) 0 (j 0)))) (V c main_arg4)) := by
  show (cfg1.win 4).cut (grid1.coords t) ((dat1 (F := Ideal) V c).after 4 t) = _
  rw [after1_4]
  unfold out1_4
  rw [View.canon_unit_zero lin_hz]
  simp only [View.ld_unit_zero (S := S5000x128) lin_hz, View.ld_unit_zero (S := S128x128) lin_hz, View.ld_unit_zero (S := S1x128) lin_hz]
  obtain ⟨e0, e1, e2, e3, e4, e5, e6, e7⟩ := lin_idx1 t
  funext j
  refine lin_read_act (V c main_v37) (fun j => V c main_v38 (ix2 (n0 := 1) (n1 := 128) 0 (j 0))) (V c main_arg4)
    (iblk1 V c 0 t) (iblk1 V c 1 t) (iblk1 V c 2 t) ((cfg1.win 4).xinj (grid1.coords t) j) (((cfg1.win 4).blk t).view.emb j)
    (fun k => ?_) (fun k => ?_) (fun k => ?_)
  · show V c main_v37 (((cfg1.win 0).blk t).view.emb (ix2 (n0 := 5000) (n1 := 128) (j 0) k)) = V c main_v37 (ix2 (n0 := 50000) (n1 := 128) ((((cfg1.win 4).blk t).view.emb j) 0) k)
    refine congrArg (V c main_v37) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v38 (((cfg1.win 1).blk t).view.emb (ix2 (n0 := 1) (n1 := 128) 0 k)) = V c main_v38 (ix2 (n0 := 1) (n1 := 128) 0 k)
    refine congrArg (V c main_v38) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg4 (((cfg1.win 2).blk t).view.emb (ix2 (n0 := 128) (n1 := 128) k (j 1))) = V c main_arg4 (ix2 (n0 := 128) (n1 := 128) k ((((cfg1.win 4).blk t).view.emb j) 1))
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega

theorem lin_cover1 (i : S50000x128.Idx) :
    ∃ t : Fin cfg1.N, (cfg1.win 4).flush t = true ∧ i ∈ ((cfg1.win 4).blk t).view.set := by
  obtain ⟨t, ht⟩ := rows_cover (N := cfg1.N) N_1 win1_4.index (fun t => ⟨(lin_idx1 t).2.2.2.2.2.2.1, (lin_idx1 t).2.2.2.2.2.2.2⟩) i
  refine ⟨t, flush1_4 _, ?_⟩
  show i ∈ ((View.whole main_v39_1).slice (win1_4.rect t)).set
  rw [View.set_slice_whole, Rect.mem_set_unit]
  exact ht

theorem final1_4 (c : Dev nD) :
    (dat1 (F := Ideal) V c).arrAt 4 cfg1.N
      = Cert.Spec.lin (Cert.Spec.act (V c main_v37) (fun j => V c main_v38 (ix2 (n0 := 1) (n1 := 128) 0 (j 0)))) (V c main_arg4) :=
  (dat1 (F := Ideal) V c).arrAt_eq_of_cover 4 _ (fun t _ => lin_flushed1 V c t) lin_cover1

theorem lin_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_4.index t (0 : Fin 2) = t.val ∧ win2_4.index t (1 : Fin 2) = 0 :=
  (by decide +kernel : ∀ t : Fin grid2.N, _)

theorem lin_flushed2 (c : Dev nD) (t : Fin cfg2.N) :
    (dat2 (F := Ideal) V c).flushed 4 t = ((cfg2.win 4).blk t).view.read (Elt Ideal)
      (Cert.Spec.lin (Cert.Spec.act (V c main_v46) (fun j => V c main_v47 (ix2 (n0 := 1) (n1 := 128) 0 (j 0)))) (V c main_arg6)) := by
  show (cfg2.win 4).cut (grid2.coords t) ((dat2 (F := Ideal) V c).after 4 t) = _
  rw [after2_4]
  unfold out2_4
  rw [View.canon_unit_zero lin_hz]
  simp only [View.ld_unit_zero (S := S5000x128) lin_hz, View.ld_unit_zero (S := S128x128) lin_hz, View.ld_unit_zero (S := S1x128) lin_hz]
  obtain ⟨e0, e1, e2, e3, e4, e5, e6, e7⟩ := lin_idx2 t
  funext j
  refine lin_read_act (V c main_v46) (fun j => V c main_v47 (ix2 (n0 := 1) (n1 := 128) 0 (j 0))) (V c main_arg6)
    (iblk2 V c 0 t) (iblk2 V c 1 t) (iblk2 V c 2 t) ((cfg2.win 4).xinj (grid2.coords t) j) (((cfg2.win 4).blk t).view.emb j)
    (fun k => ?_) (fun k => ?_) (fun k => ?_)
  · show V c main_v46 (((cfg2.win 0).blk t).view.emb (ix2 (n0 := 5000) (n1 := 128) (j 0) k)) = V c main_v46 (ix2 (n0 := 50000) (n1 := 128) ((((cfg2.win 4).blk t).view.emb j) 0) k)
    refine congrArg (V c main_v46) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  · show V c main_v47 (((cfg2.win 1).blk t).view.emb (ix2 (n0 := 1) (n1 := 128) 0 k)) = V c main_v47 (ix2 (n0 := 1) (n1 := 128) 0 k)
    refine congrArg (V c main_v47) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_arg6 (((cfg2.win 2).blk t).view.emb (ix2 (n0 := 128) (n1 := 128) k (j 1))) = V c main_arg6 (ix2 (n0 := 128) (n1 := 128) k ((((cfg2.win 4).blk t).view.emb j) 1))
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_4.index t (1 : Fin 2) * 128 + 1 * (j 1).val; omega

theorem lin_cover2 (i : S50000x128.Idx) :
    ∃ t : Fin cfg2.N, (cfg2.win 4).flush t = true ∧ i ∈ ((cfg2.win 4).blk t).view.set := by
  obtain ⟨t, ht⟩ := rows_cover (N := cfg2.N) N_2 win2_4.index (fun t => ⟨(lin_idx2 t).2.2.2.2.2.2.1, (lin_idx2 t).2.2.2.2.2.2.2⟩) i
  refine ⟨t, flush2_4 _, ?_⟩
  show i ∈ ((View.whole main_v48_1).slice (win2_4.rect t)).set
  rw [View.set_slice_whole, Rect.mem_set_unit]
  exact ht

theorem final2_4 (c : Dev nD) :
    (dat2 (F := Ideal) V c).arrAt 4 cfg2.N
      = Cert.Spec.lin (Cert.Spec.act (V c main_v46) (fun j => V c main_v47 (ix2 (n0 := 1) (n1 := 128) 0 (j 0)))) (V c main_arg6) :=
  (dat2 (F := Ideal) V c).arrAt_eq_of_cover 4 _ (fun t _ => lin_flushed2 V c t) lin_cover2

end Cert.KernelIdeal.Hand

end
-- ==== Proof.KI.ValAct.lean ====
import proofs.«412367_j16492674417057_1_alg».proof.Proof.KI.Region1
import proofs.«412367_j16492674417057_1_alg».proof.Proof.KI.Region2
import proofs.«412367_j16492674417057_1_alg».proof.Proof.KI.Region3
import proofs.«412367_j16492674417057_1_alg».proof.Proof.KI.ValLin
import proofs.«412367_j16492674417057_1_alg».proof.Proof.Spec
import Idealize.ShloMosaic.Lib.Pipeline.Value
import Idealize.ShloMosaic.Lib.ValueLayout
import Idealize.ShloMosaic.Lib.ValueIdx
import Idealize.ShloMosaic.PureOps.Ideal
import Idealize.ShloMosaic.Lib.Tactic

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

theorem act_hz : (![0, 0] : Fin 2 → Nat) = fun _ => 0 := funext fun a => by fin_cases a <;> rfl

theorem tanh_add_row_apply (x0 : Vec Ideal S5000x128 .f32) (x1 : Vec Ideal S1x128 .f32) (p : Fin 5000) (q : Fin 128) :
    (tanh (addf (shapeCast S5000x128 x0 shapeCasts_S5000x128_S5000x128)
        (broadcastTo S5000x128 (shapeCast S1x128 x1 shapeCasts_S1x128_S1x128) broadcasts_S1x128_S5000x128))
      : FVec Ideal S5000x128 .f32) (ix2 p q)
      = Ideal.tanh (x0 (ix2 p q) + x1 (ix2 (0 : Fin 1) q)) := by
  rw [shapeCast_self, shapeCast_self]
  show Ideal.tanh (x0 (ix2 p q) + broadcastTo S5000x128 x1 broadcasts_S1x128_S5000x128 (ix2 p q)) = _
  rw [broadcastTo_1b_ab_apply]

theorem k1_pay1_apply (x0 : Vec Ideal S5000x128 .f32) (x1 : Vec Ideal S1x128 .f32) (p : Fin 5000) (q : Fin 128) :
    k1_pay1 x0 x1 (ix2 p q) = Ideal.tanh (x0 (ix2 p q) + x1 (ix2 (0 : Fin 1) q)) :=
  tanh_add_row_apply x0 x1 p q

theorem k2_pay1_apply (x0 : Vec Ideal S5000x128 .f32) (x1 : Vec Ideal S1x128 .f32) (p : Fin 5000) (q : Fin 128) :
    k2_pay1 x0 x1 (ix2 p q) = Ideal.tanh (x0 (ix2 p q) + x1 (ix2 (0 : Fin 1) q)) :=
  tanh_add_row_apply x0 x1 p q

theorem k3_pay1_apply (x0 : Vec Ideal S5000x128 .f32) (x1 : Vec Ideal S1x128 .f32) (p : Fin 5000) (q : Fin 128) :
    k3_pay1 x0 x1 (ix2 p q) = Ideal.tanh (x0 (ix2 p q) + x1 (ix2 (0 : Fin 1) q)) :=
  tanh_add_row_apply x0 x1 p q

section Region1
variable (V : (c : Dev nD) → (b : Ref sig .tc) → Buf (Elt Ideal) ((c : Thread nD τ).loc b))

theorem act_idx1 : ∀ t : Fin cfg1.N, win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_3.index t (0 : Fin 2) = t.val ∧ win1_3.index t (1 : Fin 2) = 0 :=
  (by decide +kernel : ∀ t : Fin grid1.N, _)

theorem act_flushed1_3 (c : Dev nD) (t : Fin cfg1.N) :
    (dat1 (F := Ideal) V c).flushed 3 t = ((cfg1.win 3).blk t).view.read (Elt Ideal)
      (Cert.Spec.act (V c main_v37) (fun j => V c main_v38 (ix2 0 (j 0)))) := by
  show (cfg1.win 3).cut (grid1.coords t) ((dat1 V c).after 3 t) = _
  rw [after1_3]
  unfold out1_3
  rw [View.canon_unit_zero act_hz]
  simp only [View.ld_unit_zero (S := S5000x128) act_hz, View.ld_unit_zero (S := S1x128) act_hz]
  obtain ⟨e0, e1, e2, e3, e4, e5⟩ := act_idx1 t
  funext j
  refine (congrArg (k1_pay1 (iblk1 V c 0 t) (iblk1 V c 1 t))
    (eq_ix2 (n0 := 5000) (n1 := 128) ((cfg1.win 3).xinj (grid1.coords t) j))).trans ?_
  refine (k1_pay1_apply (iblk1 V c 0 t) (iblk1 V c 1 t) _ _).trans ?_
  have hp : (j 0).val < 5000 := (j 0).isLt
  have hq : (j 1).val < 128 := (j 1).isLt
  have h0 : ((cfg1.win 0).blk t).view.emb (ix2 (⟨(j 0).val, hp⟩ : Fin 5000) (⟨(j 1).val, hq⟩ : Fin 128))
      = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (ix2 (0 : Fin 1) (⟨(j 1).val, hq⟩ : Fin 128))
      = ix2 (0 : Fin 1) ((((cfg1.win 3).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have key : ∀ (A : S50000x128.Idx → EReal) (B : S1x128.Idx → EReal),
      Ideal.tanh (A (((cfg1.win 0).blk t).view.emb (ix2 (⟨(j 0).val, hp⟩ : Fin 5000) (⟨(j 1).val, hq⟩ : Fin 128)))
          + B (((cfg1.win 1).blk t).view.emb (ix2 (0 : Fin 1) (⟨(j 1).val, hq⟩ : Fin 128))))
        = Ideal.tanh (A (((cfg1.win 3).blk t).view.emb j) + B (ix2 (0 : Fin 1) ((((cfg1.win 3).blk t).view.emb j) 1))) :=
    fun A B => congrArg₂ (fun x y => Ideal.tanh (A x + B y)) h0 h1
  exact key (V c main_v37) (V c main_v38)

theorem act_cover1_3 (i : S50000x128.Idx) :
    ∃ t : Fin cfg1.N, (cfg1.win 3).flush t = true ∧ i ∈ ((cfg1.win 3).blk t).view.set := by
  obtain ⟨t, ht⟩ := rows_cover (N := cfg1.N) N_1 win1_3.index (fun t => ⟨(act_idx1 t).2.2.2.2.1, (act_idx1 t).2.2.2.2.2⟩) i
  refine ⟨t, flush1_3 _, ?_⟩
  show i ∈ ((View.whole main_v39_0).slice (win1_3.rect t)).set
  rw [View.set_slice_whole, Rect.mem_set_unit]
  exact ht

theorem final1_3 (c : Dev nD) :
    (dat1 (F := Ideal) V c).arrAt 3 cfg1.N = Cert.Spec.act (V c main_v37) (fun j => V c main_v38 (ValueIdx.ix2 0 (j 0))) :=
  (dat1 (F := Ideal) V c).arrAt_eq_of_cover 3 _ (fun t _ => act_flushed1_3 V c t) act_cover1_3

end Region1

section Region2
variable (V : (c : Dev nD) → (b : Ref sig .tc) → Buf (Elt Ideal) ((c : Thread nD τ).loc b))

theorem act_idx2 : ∀ t : Fin cfg2.N, win2_0.index t (0 : Fin 2) = win2_3.index t (0 : Fin 2)
    ∧ win2_0.index t (1 : Fin 2) = win2_3.index t (1 : Fin 2)
    ∧ win2_1.index t (0 : Fin 2) = 0 ∧ win2_1.index t (1 : Fin 2) = 0
    ∧ win2_3.index t (0 : Fin 2) = t.val ∧ win2_3.index t (1 : Fin 2) = 0 :=
  (by decide +kernel : ∀ t : Fin grid2.N, _)

theorem act_flushed2_3 (c : Dev nD) (t : Fin cfg2.N) :
    (dat2 (F := Ideal) V c).flushed 3 t = ((cfg2.win 3).blk t).view.read (Elt Ideal)
      (Cert.Spec.act (V c main_v46) (fun j => V c main_v47 (ix2 0 (j 0)))) := by
  show (cfg2.win 3).cut (grid2.coords t) ((dat2 V c).after 3 t) = _
  rw [after2_3]
  unfold out2_3
  rw [View.canon_unit_zero act_hz]
  simp only [View.ld_unit_zero (S := S5000x128) act_hz, View.ld_unit_zero (S := S1x128) act_hz]
  obtain ⟨e0, e1, e2, e3, e4, e5⟩ := act_idx2 t
  funext j
  refine (congrArg (k2_pay1 (iblk2 V c 0 t) (iblk2 V c 1 t))
    (eq_ix2 (n0 := 5000) (n1 := 128) ((cfg2.win 3).xinj (grid2.coords t) j))).trans ?_
  refine (k2_pay1_apply (iblk2 V c 0 t) (iblk2 V c 1 t) _ _).trans ?_
  have hp : (j 0).val < 5000 := (j 0).isLt
  have hq : (j 1).val < 128 := (j 1).isLt
  have h0 : ((cfg2.win 0).blk t).view.emb (ix2 (⟨(j 0).val, hp⟩ : Fin 5000) (⟨(j 1).val, hq⟩ : Fin 128))
      = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb (ix2 (0 : Fin 1) (⟨(j 1).val, hq⟩ : Fin 128))
      = ix2 (0 : Fin 1) ((((cfg2.win 3).blk t).view.emb j) 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_3.index t (1 : Fin 2) * 128 + 1 * (j 1).val; omega
  have key : ∀ (A : S50000x128.Idx → EReal) (B : S1x128.Idx → EReal),
      Ideal.tanh (A (((cfg2.win 0).blk t).view.emb (ix2 (⟨(j 0).val, hp⟩ : Fin 5000) (⟨(j 1).val, hq⟩ : Fin 128)))
          + B (((cfg2.win 1).blk t).view.emb (ix2 (0 : Fin 1) (⟨(j 1).val, hq⟩ : Fin 128))))
        = Ideal.tanh (A (((cfg2.win 3).blk t).view.emb j) + B (ix2 (0 : Fin 1) ((((cfg2.win 3).blk t).view.emb j) 1))) :=
    fun A B => congrArg₂ (fun x y => Ideal.tanh (A x + B y)) h0 h1
  exact key (V c main_v46) (V c main_v47)

theorem act_cover2_3 (i : S50000x128.Idx) :
    ∃ t : Fin cfg2.N, (cfg2.win 3).flush t = true ∧ i ∈ ((cfg2.win 3).blk t).view.set := by
  obtain ⟨t, ht⟩ := rows_cover (N := cfg2.N) N_2 win2_3.index (fun t => ⟨(act_idx2 t).2.2.2.2.1, (act_idx2 t).2.2.2.2.2⟩) i
  refine ⟨t, flush2_3 _, ?_⟩
  show i ∈ ((View.whole main_v48_0).slice (win2_3.rect t)).set
  rw [View.set_slice_whole, Rect.mem_set_unit]
  exact ht

theorem final2_3 (c : Dev nD) :
    (dat2 (F := Ideal) V c).arrAt 3 cfg2.N = Cert.Spec.act (V c main_v46) (fun j => V c main_v47 (ValueIdx.ix2 0 (j 0))) :=
  (dat2 (F := Ideal) V c).arrAt_eq_of_cover 3 _ (fun t _ => act_flushed2_3 V c t) act_cover2_3

end Region2

section Region3
variable (V : (c : Dev nD) → (b : Ref sig .tc) → Buf (Elt Ideal) ((c : Thread nD τ).loc b))

theorem act_idx3 : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem act_flushed3_2 (c : Dev nD) (t : Fin cfg3.N) :
    (dat3 (F := Ideal) V c).flushed 2 t = ((cfg3.win 2).blk t).view.read (Elt Ideal)
      (Cert.Spec.act (V c main_v55) (fun j => V c main_v56 (ix2 0 (j 0)))) := by
  show (cfg3.win 2).cut (grid3.coords t) ((dat3 V c).after 2 t) = _
  rw [after3_2]
  unfold out3_2
  rw [View.canon_unit_zero act_hz]
  simp only [View.ld_unit_zero (S := S5000x128) act_hz, View.ld_unit_zero (S := S1x128) act_hz]
  obtain ⟨e0, e1, e2, e3, e4, e5⟩ := act_idx3 t
  funext j
  refine (congrArg (k3_pay1 (iblk3 V c 0 t) (iblk3 V c 1 t))
    (eq_ix2 (n0 := 5000) (n1 := 128) ((cfg3.win 2).xinj (grid3.coords t) j))).trans ?_
  refine (k3_pay1_apply (iblk3 V c 0 t) (iblk3 V c 1 t) _ _).trans ?_
  have hp : (j 0).val < 5000 := (j 0).isLt
  have hq : (j 1).val < 128 := (j 1).isLt
  have h0 : ((cfg3.win 0).blk t).view.emb (ix2 (⟨(j 0).val, hp⟩ : Fin 5000) (⟨(j 1).val, hq⟩ : Fin 128))
      = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (⟨(j 1).val, hq⟩ : Fin 128))
      = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  have key : ∀ (A : S50000x128.Idx → EReal) (B : S1x128.Idx → EReal),
      Ideal.tanh (A (((cfg3.win 0).blk t).view.emb (ix2 (⟨(j 0).val, hp⟩ : Fin 5000) (⟨(j 1).val, hq⟩ : Fin 128)))
          + B (((cfg3.win 1).blk t).view.emb (ix2 (0 : Fin 1) (⟨(j 1).val, hq⟩ : Fin 128))))
        = Ideal.tanh (A (((cfg3.win 2).blk t).view.emb j) + B (ix2 (0 : Fin 1) ((((cfg3.win 2).blk t).view.emb j) 1))) :=
    fun A B => congrArg₂ (fun x y => Ideal.tanh (A x + B y)) h0 h1
  exact key (V c main_v55) (V c main_v56)

theorem act_cover3_2 (i : S50000x128.Idx) :
    ∃ t : Fin cfg3.N, (cfg3.win 2).flush t = true ∧ i ∈ ((cfg3.win 2).blk t).view.set := by
  obtain ⟨t, ht⟩ := rows_cover (N := cfg3.N) N_3 win3_2.index (fun t => ⟨(act_idx3 t).2.2.2.2.1, (act_idx3 t).2.2.2.2.2⟩) i
  refine ⟨t, flush3_2 _, ?_⟩
  show i ∈ ((View.whole main_v57).slice (win3_2.rect t)).set
  rw [View.set_slice_whole, Rect.mem_set_unit]
  exact ht

theorem final3_2 (c : Dev nD) :
    (dat3 (F := Ideal) V c).arrAt 2 cfg3.N = Cert.Spec.act (V c main_v55) (fun j => V c main_v56 (ValueIdx.ix2 0 (j 0))) :=
  (dat3 (F := Ideal) V c).arrAt_eq_of_cover 2 _ (fun t _ => act_flushed3_2 V c t) act_cover3_2

end Region3

end Cert.KernelIdeal.Hand

end
-- ==== Proof.KI.HostVals.lean ====
import proofs.«412367_j16492674417057_1_alg».proof.Proof.KI.Fold
import proofs.«412367_j16492674417057_1_alg».proof.Proof.KI.HostDefs
import proofs.«412367_j16492674417057_1_alg».proof.Proof.KI.HostGraph
import proofs.«412367_j16492674417057_1_alg».proof.Proof.KI.HostBias
import proofs.«412367_j16492674417057_1_alg».proof.Proof.KI.TakeMask
import proofs.«412367_j16492674417057_1_alg».proof.Proof.KI.ValLin
import proofs.«412367_j16492674417057_1_alg».proof.Proof.KI.ValAct
import proofs.«412367_j16492674417057_1_alg».proof.Proof.Spec
import Idealize.ShloMosaic.PureOps.Ideal
import Idealize.ShloMosaic.Lib.StableHlo.Run
import Idealize.ShloMosaic.Lib.ValueLayout
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Idealize.ShloMosaic.StableHlo
open Cert.KernelIdeal Cert.KernelIdeal.Gen

variable (m : (ℓ : Loc nD τ sig) → Buf (Elt Ideal) ℓ) (ρ : Dev nD → PrngReg)

abbrev eiOf (c : Dev nD) : IVec S2x800000 32 := m ((c : Thread nD τ).loc main_arg1)

abbrev hw0 (c : Dev nD) : Cert.Spec.SN.Idx → EReal := Cert.Spec.lin (m ((c : Thread nD τ).loc main_arg0)) (m ((c : Thread nD τ).loc main_arg2))
abbrev act1 (c : Dev nD) : Cert.Spec.SN.Idx → EReal := Cert.Spec.act (aggK (F := Ideal) (eiOf m c) (hw0 m c)) (m ((c : Thread nD τ).loc main_arg3))
abbrev hw1 (c : Dev nD) : Cert.Spec.SN.Idx → EReal := Cert.Spec.lin (act1 m c) (m ((c : Thread nD τ).loc main_arg4))
abbrev act2 (c : Dev nD) : Cert.Spec.SN.Idx → EReal := Cert.Spec.act (aggK (F := Ideal) (eiOf m c) (hw1 m c)) (m ((c : Thread nD τ).loc main_arg5))
abbrev hw2 (c : Dev nD) : Cert.Spec.SN.Idx → EReal := Cert.Spec.lin (act2 m c) (m ((c : Thread nD τ).loc main_arg6))
abbrev act3 (c : Dev nD) : Cert.Spec.SN.Idx → EReal := Cert.Spec.act (aggK (F := Ideal) (eiOf m c) (hw2 m c)) (m ((c : Thread nD τ).loc main_arg7))

theorem agg_of_parts (ei : IVec S2x800000 32) (h : rowsInRange ei) (hw : FVec Ideal S50000x128 .f32)
    (col : IVec S850000 32) (nrm : FVec Ideal S850000x1 .f32) (tk : FVec Ideal S850000x128 .f32)
    (hcol : col = colOf ei)
    (hnrm : nrm = broadcastInDim S850000x1 ![0] bcast_S850000_S850000x1_0 (normOf (F := Ideal) ei))
    (htk : tk = takeK (F := Ideal) hw (rowOf ei)) :
    Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 col)
        (mulf (broadcastInDim S850000x128 ![0, 1] bcast_S850000x1_S850000x128_0_1 nrm) tk)
      = aggK (F := Ideal) ei hw := by
  subst hcol hnrm htk
  rw [take_eq_gather ei h hw]
  rfl

theorem W4_main_v30 (c : Dev nD) : W4 (F := Ideal) m ρ c (Proc.devRef .tc main_v30) = hw0 m c := by
  refine (W4_arr m ρ c 2).trans ((final0_2 (V3 m ρ) c).trans ?_)
  show Cert.Spec.lin (W3 (F := Ideal) m ρ c (Proc.devRef .tc main_arg0)) (W3 (F := Ideal) m ρ c (Proc.devRef .tc main_arg2)) = _
  exact congrArg₂ Cert.Spec.lin (W3_main_arg0 m ρ c) (W3_main_arg2 m ρ c)

theorem W5_main_v31 (c : Dev nD) : W5 (F := Ideal) m ρ c (Proc.devRef .tc main_v31)
    = broadcastInDim S850000x1 ![0] bcast_S850000_S850000x1_0 (normOf (F := Ideal) (eiOf m c)) := by
  have e : W5 (F := Ideal) m ρ c (Proc.devRef .tc main_v31)
      = broadcastInDim S850000x1 ![0] bcast_S850000_S850000x1_0 (W4 (F := Ideal) m ρ c (Proc.devRef .tc main_v29)) := by
    show StableHlo.after hostOps1 _ (Proc.devRef .tc main_v31) = _
    after_results
  exact e.trans (congrArg _ ((W4_carry m ρ c main_v29 untouched_main_v29).trans (W3_main_v29 m ρ c)))

theorem W7_main_v37_printed (c : Dev nD) : W7 (F := Ideal) m ρ c (Proc.devRef .tc main_v37)
    = Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 (W6 (F := Ideal) m ρ c (Proc.devRef .tc main_v6)))
        (mulf (broadcastInDim S850000x128 ![0, 1] bcast_S850000x1_S850000x128_0_1 (W6 (F := Ideal) m ρ c (Proc.devRef .tc main_v31)))
          (W6 (F := Ideal) m ρ c (Proc.devRef .tc main_v32))) := by
  show StableHlo.after hostOps1_2 _ (Proc.devRef .tc main_v37) = _
  after_results_simp

theorem W7_main_v37 (c : Dev nD) (h : rowsInRange (eiOf m c)) : W7 (F := Ideal) m ρ c (Proc.devRef .tc main_v37)
    = aggK (F := Ideal) (eiOf m c) (W4 (F := Ideal) m ρ c (Proc.devRef .tc main_v30)) := by
  refine (W7_main_v37_printed m ρ c).trans (agg_of_parts (eiOf m c) h _ _ _ _ ?_ ?_ ?_)
  · exact (W6_carry m ρ c main_v6 untouched_main_v6).trans (W3_main_v6 m ρ c)
  · exact (W6_of m ρ c main_v31 (by decide)).trans (W5_main_v31 m ρ c)
  · exact (take1_eq (W5 (F := Ideal) m ρ c)).trans
      (congrArg₂ (takeK (F := Ideal)) (W5_of m ρ c main_v30 (by decide)) ((W5_carry m ρ c main_v3 untouched_main_v3).trans (W3_main_v3 m ρ c)))

theorem W8_main_v39_0 (c : Dev nD) (h : rowsInRange (eiOf m c)) : W8 (F := Ideal) m ρ c (Proc.devRef .tc main_v39_0) = act1 m c := by
  refine (W8_arr m ρ c 3).trans ((final1_3 (V7 m ρ) c).trans ((act_V7_bias m ρ _ c).trans ?_))
  show Cert.Spec.act (W7 (F := Ideal) m ρ c (Proc.devRef .tc main_v37)) (m ((c : Thread nD τ).loc main_arg3)) = _
  exact congrArg (Cert.Spec.act · (m ((c : Thread nD τ).loc main_arg3))) ((W7_main_v37 m ρ c h).trans (congrArg _ (W4_main_v30 m ρ c)))
theorem W8_main_v39_1 (c : Dev nD) (h : rowsInRange (eiOf m c)) : W8 (F := Ideal) m ρ c (Proc.devRef .tc main_v39_1) = hw1 m c := by
  refine (W8_arr m ρ c 4).trans ((final1_4 (V7 m ρ) c).trans ?_)
  refine (congrArg (Cert.Spec.lin · (V7 m ρ c main_arg4)) (act_V7_bias m ρ _ c)).trans ?_
  show Cert.Spec.lin (Cert.Spec.act (W7 (F := Ideal) m ρ c (Proc.devRef .tc main_v37)) (m ((c : Thread nD τ).loc main_arg3))) (W7 (F := Ideal) m ρ c (Proc.devRef .tc main_arg4)) = _
  exact congrArg₂ Cert.Spec.lin (congrArg (Cert.Spec.act · (m ((c : Thread nD τ).loc main_arg3))) ((W7_main_v37 m ρ c h).trans (congrArg _ (W4_main_v30 m ρ c)))) (W7_main_arg4 m ρ c)

theorem W9_main_v40 (c : Dev nD) : W9 (F := Ideal) m ρ c (Proc.devRef .tc main_v40)
    = broadcastInDim S850000x1 ![0] bcast_S850000_S850000x1_0 (normOf (F := Ideal) (eiOf m c)) := by
  have e : W9 (F := Ideal) m ρ c (Proc.devRef .tc main_v40)
      = broadcastInDim S850000x1 ![0] bcast_S850000_S850000x1_0 (W8 (F := Ideal) m ρ c (Proc.devRef .tc main_v29)) := by
    show StableHlo.after hostOps2 _ (Proc.devRef .tc main_v40) = _
    after_results
  exact e.trans (congrArg _ ((W8_carry m ρ c main_v29 untouched_main_v29).trans (W3_main_v29 m ρ c)))

theorem W11_main_v46_printed (c : Dev nD) : W11 (F := Ideal) m ρ c (Proc.devRef .tc main_v46)
    = Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 (W10 (F := Ideal) m ρ c (Proc.devRef .tc main_v6)))
        (mulf (broadcastInDim S850000x128 ![0, 1] bcast_S850000x1_S850000x128_0_1 (W10 (F := Ideal) m ρ c (Proc.devRef .tc main_v40)))
          (W10 (F := Ideal) m ρ c (Proc.devRef .tc main_v41))) := by
  show StableHlo.after hostOps2_2 _ (Proc.devRef .tc main_v46) = _
  after_results_simp

theorem W11_main_v46 (c : Dev nD) (h : rowsInRange (eiOf m c)) : W11 (F := Ideal) m ρ c (Proc.devRef .tc main_v46)
    = aggK (F := Ideal) (eiOf m c) (W8 (F := Ideal) m ρ c (Proc.devRef .tc main_v39_1)) := by
  refine (W11_main_v46_printed m ρ c).trans (agg_of_parts (eiOf m c) h _ _ _ _ ?_ ?_ ?_)
  · exact (W10_carry m ρ c main_v6 untouched_main_v6).trans (W3_main_v6 m ρ c)
  · exact (W10_of m ρ c main_v40 (by decide)).trans (W9_main_v40 m ρ c)
  · exact (take2_eq (W9 (F := Ideal) m ρ c)).trans
      (congrArg₂ (takeK (F := Ideal)) (W9_of m ρ c main_v39_1 (by decide)) ((W9_carry m ρ c main_v3 untouched_main_v3).trans (W3_main_v3 m ρ c)))

theorem W12_main_v48_0 (c : Dev nD) (h : rowsInRange (eiOf m c)) : W12 (F := Ideal) m ρ c (Proc.devRef .tc main_v48_0) = act2 m c := by
  refine (W12_arr m ρ c 3).trans ((final2_3 (V11 m ρ) c).trans ((act_V11_bias m ρ _ c).trans ?_))
  show Cert.Spec.act (W11 (F := Ideal) m ρ c (Proc.devRef .tc main_v46)) (m ((c : Thread nD τ).loc main_arg5)) = _
  exact congrArg (Cert.Spec.act · (m ((c : Thread nD τ).loc main_arg5))) ((W11_main_v46 m ρ c h).trans (congrArg _ (W8_main_v39_1 m ρ c h)))
theorem W12_main_v48_1 (c : Dev nD) (h : rowsInRange (eiOf m c)) : W12 (F := Ideal) m ρ c (Proc.devRef .tc main_v48_1) = hw2 m c := by
  refine (W12_arr m ρ c 4).trans ((final2_4 (V11 m ρ) c).trans ?_)
  refine (congrArg (Cert.Spec.lin · (V11 m ρ c main_arg6)) (act_V11_bias m ρ _ c)).trans ?_
  show Cert.Spec.lin (Cert.Spec.act (W11 (F := Ideal) m ρ c (Proc.devRef .tc main_v46)) (m ((c : Thread nD τ).loc main_arg5))) (W11 (F := Ideal) m ρ c (Proc.devRef .tc main_arg6)) = _
  exact congrArg₂ Cert.Spec.lin (congrArg (Cert.Spec.act · (m ((c : Thread nD τ).loc main_arg5))) ((W11_main_v46 m ρ c h).trans (congrArg _ (W8_main_v39_1 m ρ c h)))) (W11_main_arg6 m ρ c)

theorem W13_main_v49 (c : Dev nD) : W13 (F := Ideal) m ρ c (Proc.devRef .tc main_v49)
    = broadcastInDim S850000x1 ![0] bcast_S850000_S850000x1_0 (normOf (F := Ideal) (eiOf m c)) := by
  have e : W13 (F := Ideal) m ρ c (Proc.devRef .tc main_v49)
      = broadcastInDim S850000x1 ![0] bcast_S850000_S850000x1_0 (W12 (F := Ideal) m ρ c (Proc.devRef .tc main_v29)) := by
    show StableHlo.after hostOps3 _ (Proc.devRef .tc main_v49) = _
    after_results
  exact e.trans (congrArg _ ((W12_carry m ρ c main_v29 untouched_main_v29).trans (W3_main_v29 m ρ c)))

theorem W15_main_v55_printed (c : Dev nD) : W15 (F := Ideal) m ρ c (Proc.devRef .tc main_v55)
    = Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 (W14 (F := Ideal) m ρ c (Proc.devRef .tc main_v6)))
        (mulf (broadcastInDim S850000x128 ![0, 1] bcast_S850000x1_S850000x128_0_1 (W14 (F := Ideal) m ρ c (Proc.devRef .tc main_v49)))
          (W14 (F := Ideal) m ρ c (Proc.devRef .tc main_v50))) := by
  show StableHlo.after hostOps3_2 _ (Proc.devRef .tc main_v55) = _
  after_results_simp

theorem W15_main_v55 (c : Dev nD) (h : rowsInRange (eiOf m c)) : W15 (F := Ideal) m ρ c (Proc.devRef .tc main_v55)
    = aggK (F := Ideal) (eiOf m c) (W12 (F := Ideal) m ρ c (Proc.devRef .tc main_v48_1)) := by
  refine (W15_main_v55_printed m ρ c).trans (agg_of_parts (eiOf m c) h _ _ _ _ ?_ ?_ ?_)
  · exact (W14_carry m ρ c main_v6 untouched_main_v6).trans (W3_main_v6 m ρ c)
  · exact (W14_of m ρ c main_v49 (by decide)).trans (W13_main_v49 m ρ c)
  · exact (take3_eq (W13 (F := Ideal) m ρ c)).trans
      (congrArg₂ (takeK (F := Ideal)) (W13_of m ρ c main_v48_1 (by decide)) ((W13_carry m ρ c main_v3 untouched_main_v3).trans (W3_main_v3 m ρ c)))

theorem W16_main_v57 (c : Dev nD) (h : rowsInRange (eiOf m c)) : W16 (F := Ideal) m ρ c (Proc.devRef .tc main_v57) = act3 m c := by
  refine (W16_arr m ρ c 2).trans ((final3_2 (V15 m ρ) c).trans ((act_V15_bias m ρ _ c).trans ?_))
  show Cert.Spec.act (W15 (F := Ideal) m ρ c (Proc.devRef .tc main_v55)) (m ((c : Thread nD τ).loc main_arg7)) = _
  exact congrArg (Cert.Spec.act · (m ((c : Thread nD τ).loc main_arg7))) ((W15_main_v55 m ρ c h).trans (congrArg _ (W12_main_v48_1 m ρ c h)))

theorem W16_main_v39_0 (c : Dev nD) (h : rowsInRange (eiOf m c)) : W16 (F := Ideal) m ρ c (Proc.devRef .tc main_v39_0) = act1 m c :=
  (W16_of m ρ c main_v39_0 (by decide)).trans <|
    (W15_of m ρ c main_v39_0 (by decide)).trans <|
    (W14_of m ρ c main_v39_0 (by decide)).trans <|
    (W13_of m ρ c main_v39_0 (by decide)).trans <|
    (W12_of m ρ c main_v39_0 (by decide)).trans <|
    (W11_of m ρ c main_v39_0 (by decide)).trans <|
    (W10_of m ρ c main_v39_0 (by decide)).trans <|
    (W9_of m ρ c main_v39_0 (by decide)).trans <|
    (W8_main_v39_0 m ρ c h)
theorem W16_main_v48_0 (c : Dev nD) (h : rowsInRange (eiOf m c)) : W16 (F := Ideal) m ρ c (Proc.devRef .tc main_v48_0) = act2 m c :=
  (W16_of m ρ c main_v48_0 (by decide)).trans <|
    (W15_of m ρ c main_v48_0 (by decide)).trans <|
    (W14_of m ρ c main_v48_0 (by decide)).trans <|
    (W13_of m ρ c main_v48_0 (by decide)).trans <|
    (W12_main_v48_0 m ρ c h)

theorem W17_main_v61 (c : Dev nD) : W17 (F := Ideal) m ρ c (Proc.devRef .tc main_v61)
    = stackK (F := Ideal) (W16 (F := Ideal) m ρ c (Proc.devRef .tc main_v39_0)) (W16 (F := Ideal) m ρ c (Proc.devRef .tc main_v48_0)) (W16 (F := Ideal) m ρ c (Proc.devRef .tc main_v57)) := by
  show StableHlo.after hostOps4 _ (Proc.devRef .tc main_v61) = _
  after_results
  rfl

theorem kernel_result (c : Dev nD) (h : rowsInRange (m ((c : Thread nD τ).loc main_arg1))) :
    W17 (F := Ideal) m ρ c (Proc.devRef .tc main_v61)
      = Cert.Spec.gcn (aggK (F := Ideal) (m ((c : Thread nD τ).loc main_arg1))) (stackK (F := Ideal))
          (m ((c : Thread nD τ).loc main_arg0)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W17_main_v61 m ρ c).trans ?_
  rw [W16_main_v39_0 m ρ c h, W16_main_v48_0 m ρ c h, W16_main_v57 m ρ c h]
  rfl

end Cert.KernelIdeal.Hand

end
-- ==== Proof.Ref.RunH.lean ====
import proofs.«412367_j16492674417057_1_alg».proof.Proof.Gen.ReferenceIdeal
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev partG : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf (F := F) .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]
abbrev partL1 : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v31 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v30 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v39 (broadcastInDim S850000x128 ![0, 1] bcast_S850000x1_S850000x128_0_1 : (⟨S850000x1, .f32⟩ : BufTy).Contents (Elt F) → (⟨S850000x128, .f32⟩ : BufTy).Contents (Elt F)),
    binary main_v39 main_v38 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    unary main_v46 main_v47 (Host.tanh : (⟨S50000x128, .f32⟩ : BufTy).Contents (Elt F) → (⟨S50000x128, .f32⟩ : BufTy).Contents (Elt F)),
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
abbrev partL2 : List (HloOp τ sig (Elt F)) :=
  [ unary main_v29 main_v49 (broadcastInDim S850000x1 ![0] bcast_S850000_S850000x1_0 : (⟨S850000, .f32⟩ : BufTy).Contents (Elt F) → (⟨S850000x1, .f32⟩ : BufTy).Contents (Elt F)),
    nullary main_c_9 (constantI S_ 32 0#32),
    unary main_c_9 main_v50 (broadcastInDim S850000 ![] bcast_S_S850000 : (⟨S_, .i32⟩ : BufTy).Contents (Elt F) → (⟨S850000, .i32⟩ : BufTy).Contents (Elt F)),
    binary main_v3 main_v50 main_v51 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v52 (broadcastInDim S850000 ![] bcast_S_S850000 : (⟨S_, .i32⟩ : BufTy).Contents (Elt F) → (⟨S850000, .i32⟩ : BufTy).Contents (Elt F)),
    binary main_v3 main_v52 main_v53 (addi : (⟨S850000, .i32⟩ : BufTy).Contents (Elt F) → (⟨S850000, .i32⟩ : BufTy).Contents (Elt F) → (⟨S850000, .i32⟩ : BufTy).Contents (Elt F)),
    ternary main_v51 main_v53 main_v3 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v54 main_v55 (broadcastInDim S850000x1 ![0] bcast_S850000_S850000x1_0 : (⟨S850000, .i32⟩ : BufTy).Contents (Elt F) → (⟨S850000x1, .i32⟩ : BufTy).Contents (Elt F)),
    binary main_v48 main_v55 main_v56 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v49 main_v57 (broadcastInDim S850000x128 ![0, 1] bcast_S850000x1_S850000x128_0_1 : (⟨S850000x1, .f32⟩ : BufTy).Contents (Elt F) → (⟨S850000x128, .f32⟩ : BufTy).Contents (Elt F)),
    binary main_v57 main_v56 main_v58 (mulf : (⟨S850000x128, .f32⟩ : BufTy).Contents (Elt F) → (⟨S850000x128, .f32⟩ : BufTy).Contents (Elt F) → (⟨S850000x128, .f32⟩ : BufTy).Contents (Elt F)),
    nullary main_cst_11 (constant S_ .f32 0x00000000#32),
    unary main_cst_11 main_v59 (broadcastInDim S50000x128 ![] bcast_S_S50000x128 : (⟨S_, .f32⟩ : BufTy).Contents (Elt F) → (⟨S50000x128, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    unary main_v64 main_v65 (Host.tanh : (⟨S50000x128, .f32⟩ : BufTy).Contents (Elt F) → (⟨S50000x128, .f32⟩ : BufTy).Contents (Elt F)),
    binary main_v65 main_arg6 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
abbrev partL3 : List (HloOp τ sig (Elt F)) :=
  [ unary main_v29 main_v67 (broadcastInDim S850000x1 ![0] bcast_S850000_S850000x1_0 : (⟨S850000, .f32⟩ : BufTy).Contents (Elt F) → (⟨S850000x1, .f32⟩ : BufTy).Contents (Elt F)),
    nullary main_c_12 (constantI S_ 32 0#32),
    unary main_c_12 main_v68 (broadcastInDim S850000 ![] bcast_S_S850000 : (⟨S_, .i32⟩ : BufTy).Contents (Elt F) → (⟨S850000, .i32⟩ : BufTy).Contents (Elt F)),
    binary main_v3 main_v68 main_v69 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v70 (broadcastInDim S850000 ![] bcast_S_S850000 : (⟨S_, .i32⟩ : BufTy).Contents (Elt F) → (⟨S850000, .i32⟩ : BufTy).Contents (Elt F)),
    binary main_v3 main_v70 main_v71 (addi : (⟨S850000, .i32⟩ : BufTy).Contents (Elt F) → (⟨S850000, .i32⟩ : BufTy).Contents (Elt F) → (⟨S850000, .i32⟩ : BufTy).Contents (Elt F)),
    ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v72 main_v73 (broadcastInDim S850000x1 ![0] bcast_S850000_S850000x1_0 : (⟨S850000, .i32⟩ : BufTy).Contents (Elt F) → (⟨S850000x1, .i32⟩ : BufTy).Contents (Elt F)),
    binary main_v66 main_v73 main_v74 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v67 main_v75 (broadcastInDim S850000x128 ![0, 1] bcast_S850000x1_S850000x128_0_1 : (⟨S850000x1, .f32⟩ : BufTy).Contents (Elt F) → (⟨S850000x128, .f32⟩ : BufTy).Contents (Elt F)),
    binary main_v75 main_v74 main_v76 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v77 (broadcastInDim S50000x128 ![] bcast_S_S50000x128 : (⟨S_, .f32⟩ : BufTy).Contents (Elt F) → (⟨S50000x128, .f32⟩ : BufTy).Contents (Elt F)),
    unary main_v6 main_v78 (broadcastInDim S850000x1 ![0] bcast_S850000_S850000x1_0 : (⟨S850000, .i32⟩ : BufTy).Contents (Elt F) → (⟨S850000x1, .i32⟩ : BufTy).Contents (Elt F)),
    ternary main_v77 main_v78 main_v76 main_v79 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg7 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (addf : (⟨S50000x128, .f32⟩ : BufTy).Contents (Elt F) → (⟨S50000x128, .f32⟩ : BufTy).Contents (Elt F) → (⟨S50000x128, .f32⟩ : BufTy).Contents (Elt F)),
    unary main_v82 main_v83 (Host.tanh : (⟨S50000x128, .f32⟩ : BufTy).Contents (Elt F) → (⟨S50000x128, .f32⟩ : BufTy).Contents (Elt F)) ]
abbrev partT : List (HloOp τ sig (Elt F)) :=
  [ unary main_v47 main_v84 (broadcastInDim S50000x1x128 ![0, 2] bcast_S50000x128_S50000x1x128_0_2 : (⟨S50000x128, .f32⟩ : BufTy).Contents (Elt F) → (⟨S50000x1x128, .f32⟩ : BufTy).Contents (Elt F)),
    unary main_v65 main_v85 (broadcastInDim S50000x1x128 ![0, 2] bcast_S50000x128_S50000x1x128_0_2 : (⟨S50000x128, .f32⟩ : BufTy).Contents (Elt F) → (⟨S50000x1x128, .f32⟩ : BufTy).Contents (Elt F)),
    unary main_v83 main_v86 (broadcastInDim S50000x1x128 ![0, 2] bcast_S50000x128_S50000x1x128_0_2 : (⟨S50000x128, .f32⟩ : BufTy).Contents (Elt F) → (⟨S50000x1x128, .f32⟩ : BufTy).Contents (Elt F)),
    nary ![main_v84, main_v85, main_v86] main_v87 (fun u => concatenate S50000x3x128 1 [⟨S50000x1x128, u 0⟩, ⟨S50000x1x128, u 1⟩, ⟨S50000x1x128, u 2⟩] concatenates_S50000x1x128_S50000x1x128_S50000x1x128_S50000x3x128_d1) ]

abbrev ops : List (HloOp τ sig (Elt F)) := partG ++ partL1 ++ partL2 ++ partL3 ++ partT

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., unary_bufs_sub .., unary_bufs_sub .., nary_bufs_sub ..⟩

def rowV (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0
def colV (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0
def wrapV (i : (⟨S850000, .i32⟩ : BufTy).Contents (Elt F)) : (⟨S850000, .i32⟩ : BufTy).Contents (Elt F) :=
  select (cmpi .slt i (broadcastInDim S850000 ![] bcast_S_S850000 (constantI S_ 32 0#32))) (addi i (broadcastInDim S850000 ![] bcast_S_S850000 (constantI S_ 32 50000#32))) i
def degV (col : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant (F := F) S_ .f32 0x00000000#32)) (broadcastInDim S850000x1 ![0] bcast_S850000_S850000x1_0 col) (broadcastInDim S850000 ![] bcast_S_S850000 (constant (F := F) S_ .f32 0x3F800000#32))
def dinvV (deg : (⟨S50000, .f32⟩ : BufTy).Contents (Elt F)) : (⟨S50000, .f32⟩ : BufTy).Contents (Elt F) :=
  select (cmpf (F := F) .ogt deg (broadcastInDim S50000 ![] bcast_S_S50000 (constant (F := F) S_ .f32 0x00000000#32))) (Host.rsqrt deg) (broadcastInDim S50000 ![] bcast_S_S50000 (id (constant (F := F) S_ .f32 0x00000000#32)))
def normV (row col : (⟨S850000, .i32⟩ : BufTy).Contents (Elt F)) (dinv : (⟨S50000, .f32⟩ : BufTy).Contents (Elt F)) : (⟨S850000, .f32⟩ : BufTy).Contents (Elt F) :=
  mulf (Host.gather gather_S50000_S850000x1_S850000_n_0_n_n_0_1_1 dinv (broadcastInDim S850000x1 ![0] bcast_S850000_S850000x1_0 (wrapV row))) (Host.gather gather_S50000_S850000x1_S850000_n_0_n_n_0_1_1 dinv (broadcastInDim S850000x1 ![0] bcast_S850000_S850000x1_0 (wrapV col)))
def normE (ei : (⟨S2x800000, .i32⟩ : BufTy).Contents (Elt F)) : (⟨S850000, .f32⟩ : BufTy).Contents (Elt F) := normV (rowV ei) (colV ei) (dinvV (F := F) (degV (F := F) (colV ei)))
def linV (h : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none h w
def aggV (row col : (⟨S850000, .i32⟩ : BufTy).Contents (Elt F)) (norm : (⟨S850000, .f32⟩ : BufTy).Contents (Elt F)) (hw : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant (F := F) S_ .f32 0x00000000#32)) (broadcastInDim S850000x1 ![0] bcast_S850000_S850000x1_0 col) (mulf (broadcastInDim S850000x128 ![0, 1] bcast_S850000x1_S850000x128_0_1 (broadcastInDim S850000x1 ![0] bcast_S850000_S850000x1_0 norm)) (Host.gather gather_S50000x128_S850000x1_S850000x128_1_0_n_n_0_1_1128 hw (broadcastInDim S850000x1 ![0] bcast_S850000_S850000x1_0 (wrapV row))))
def actV (agg : (⟨S50000x128, .f32⟩ : BufTy).Contents (Elt F)) (b : (⟨S128, .f32⟩ : BufTy).Contents (Elt F)) : (⟨S50000x128, .f32⟩ : BufTy).Contents (Elt F) :=
  Host.tanh (addf agg (broadcastInDim S50000x128 ![0, 1] bcast_S1x128_S50000x128_0_1 (broadcastInDim S1x128 ![1] bcast_S128_S1x128_1 b)))
def h1E (x0 : (⟨S50000x128, .f32⟩ : BufTy).Contents (Elt F)) (ei : (⟨S2x800000, .i32⟩ : BufTy).Contents (Elt F)) (w0 : (⟨S128x128, .f32⟩ : BufTy).Contents (Elt F)) (b0 : (⟨S128, .f32⟩ : BufTy).Contents (Elt F)) : (⟨S50000x128, .f32⟩ : BufTy).Contents (Elt F) :=
  actV (aggV (rowV ei) (colV ei) (normE (F := F) ei) (linV x0 w0)) b0
def h2E (x0 : (⟨S50000x128, .f32⟩ : BufTy).Contents (Elt F)) (ei : (⟨S2x800000, .i32⟩ : BufTy).Contents (Elt F)) (w0 : (⟨S128x128, .f32⟩ : BufTy).Contents (Elt F)) (b0 : (⟨S128, .f32⟩ : BufTy).Contents (Elt F)) (w1 : (⟨S128x128, .f32⟩ : BufTy).Contents (Elt F)) (b1 : (⟨S128, .f32⟩ : BufTy).Contents (Elt F)) : (⟨S50000x128, .f32⟩ : BufTy).Contents (Elt F) :=
  actV (aggV (rowV ei) (colV ei) (normE (F := F) ei) (linV (h1E x0 ei w0 b0) w1)) b1
def h3E (x0 : (⟨S50000x128, .f32⟩ : BufTy).Contents (Elt F)) (ei : (⟨S2x800000, .i32⟩ : BufTy).Contents (Elt F)) (w0 : (⟨S128x128, .f32⟩ : BufTy).Contents (Elt F)) (b0 : (⟨S128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S50000x128, .f32⟩ : BufTy).Contents (Elt F) :=
  actV (aggV (rowV ei) (colV ei) (normE (F := F) ei) (linV (h2E x0 ei w0 b0 w1 b1) w2)) b2
def stackV (h1 h2 h3 : (⟨S50000x128, .f32⟩ : BufTy).Contents (Elt F)) : (⟨S50000x3x128, .f32⟩ : BufTy).Contents (Elt F) :=
  concatenate S50000x3x128 1 [⟨S50000x1x128, (broadcastInDim S50000x1x128 ![0, 2] bcast_S50000x128_S50000x1x128_0_2 h1)⟩, ⟨S50000x1x128, (broadcastInDim S50000x1x128 ![0, 2] bcast_S50000x128_S50000x1x128_0_2 h2)⟩, ⟨S50000x1x128, (broadcastInDim S50000x1x128 ![0, 2] bcast_S50000x128_S50000x1x128_0_2 h3)⟩] concatenates_S50000x1x128_S50000x1x128_S50000x1x128_S50000x3x128_d1
def outE (x0 : (⟨S50000x128, .f32⟩ : BufTy).Contents (Elt F)) (ei : (⟨S2x800000, .i32⟩ : BufTy).Contents (Elt F)) (w0 : (⟨S128x128, .f32⟩ : BufTy).Contents (Elt F)) (b0 : (⟨S128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S50000x3x128, .f32⟩ : BufTy).Contents (Elt F) :=
  stackV (h1E x0 ei w0 b0) (h2E x0 ei w0 b0 w1 b1) (h3E x0 ei w0 b0 w1 b1 w2 b2)

abbrev partG_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]
abbrev partL1_W : List (Ref sig .tc) := [main_v30, main_v31, main_c_6, main_v32, main_v33, main_c_7, main_v34, main_v35, main_v36, main_v37, main_v38, main_v39, main_v40, main_cst_8, main_v41, main_v42, main_v43, main_v44, main_v45, main_v46, main_v47, main_v48]
abbrev partL2_W : List (Ref sig .tc) := [main_v49, main_c_9, main_v50, main_v51, main_c_10, main_v52, main_v53, main_v54, main_v55, main_v56, main_v57, main_v58, main_cst_11, main_v59, main_v60, main_v61, main_v62, main_v63, main_v64, main_v65, main_v66]
abbrev partL3_W : List (Ref sig .tc) := [main_v67, main_c_12, main_v68, main_v69, main_c_13, main_v70, main_v71, main_v72, main_v73, main_v74, main_v75, main_v76, main_cst_14, main_v77, main_v78, main_v79, main_v80, main_v81, main_v82, main_v83]
abbrev partT_W : List (Ref sig .tc) := [main_v84, main_v85, main_v86, main_v87]

local macro "writes_in_list" : tactic =>
  `(tactic| (simp only [List.Forall]
             repeat' apply And.intro
             all_goals
               simp only [nullary_writes, unary_writes, binary_writes, ternary_writes, reshape_writes, nary_writes,
                 Finset.singleton_subset_iff, List.mem_toFinset]
               exact List.mem_map_of_mem (by decide)))

set_option maxRecDepth 8192 in
theorem partG_writes : (partG : List (HloOp τ sig (Elt F))).Forall fun op => op.writes ⊆ (partG_W.map (Proc.devRef (τ := τ) .tc)).toFinset := by
  writes_in_list
set_option maxRecDepth 8192 in
theorem partL1_writes : (partL1 : List (HloOp τ sig (Elt F))).Forall fun op => op.writes ⊆ (partL1_W.map (Proc.devRef (τ := τ) .tc)).toFinset := by
  writes_in_list
set_option maxRecDepth 8192 in
theorem partL2_writes : (partL2 : List (HloOp τ sig (Elt F))).Forall fun op => op.writes ⊆ (partL2_W.map (Proc.devRef (τ := τ) .tc)).toFinset := by
  writes_in_list
set_option maxRecDepth 8192 in
theorem partL3_writes : (partL3 : List (HloOp τ sig (Elt F))).Forall fun op => op.writes ⊆ (partL3_W.map (Proc.devRef (τ := τ) .tc)).toFinset := by
  writes_in_list
theorem partT_writes : (partT : List (HloOp τ sig (Elt F))).Forall fun op => op.writes ⊆ (partT_W.map (Proc.devRef (τ := τ) .tc)).toFinset := by
  writes_in_list

def valG (V0 : Valuation τ sig (Elt F)) : Valuation τ sig (Elt F) := after partG V0
def valL1 (V0 : Valuation τ sig (Elt F)) : Valuation τ sig (Elt F) := after partL1 (valG V0)
def valL2 (V0 : Valuation τ sig (Elt F)) : Valuation τ sig (Elt F) := after partL2 (valL1 V0)
def valL3 (V0 : Valuation τ sig (Elt F)) : Valuation τ sig (Elt F) := after partL3 (valL2 V0)
def valT (V0 : Valuation τ sig (Elt F)) : Valuation τ sig (Elt F) := after partT (valL3 V0)

theorem after_ops (V0 : Valuation τ sig (Elt F)) : after (ops : List (HloOp τ sig (Elt F))) V0 = valT V0 := by
  show after (partG ++ partL1 ++ partL2 ++ partL3 ++ partT) V0 = _
  simp only [StableHlo.after_append]
  rfl

theorem valG_keep (V0 : Valuation τ sig (Elt F)) (r : Ref sig .tc) (h : r ∉ partG_W) : valG V0 (Proc.devRef .tc r) = V0 (Proc.devRef .tc r) :=
  after_of_writes_sub partG _ partG_writes h
theorem valL1_keep (V0 : Valuation τ sig (Elt F)) (r : Ref sig .tc) (h : r ∉ partL1_W) : valL1 V0 (Proc.devRef .tc r) = valG V0 (Proc.devRef .tc r) :=
  after_of_writes_sub partL1 _ partL1_writes h
theorem valL2_keep (V0 : Valuation τ sig (Elt F)) (r : Ref sig .tc) (h : r ∉ partL2_W) : valL2 V0 (Proc.devRef .tc r) = valL1 V0 (Proc.devRef .tc r) :=
  after_of_writes_sub partL2 _ partL2_writes h
theorem valL3_keep (V0 : Valuation τ sig (Elt F)) (r : Ref sig .tc) (h : r ∉ partL3_W) : valL3 V0 (Proc.devRef .tc r) = valL2 V0 (Proc.devRef .tc r) :=
  after_of_writes_sub partL3 _ partL3_writes h
theorem valT_keep (V0 : Valuation τ sig (Elt F)) (r : Ref sig .tc) (h : r ∉ partT_W) : valT V0 (Proc.devRef .tc r) = valL3 V0 (Proc.devRef .tc r) :=
  after_of_writes_sub partT _ partT_writes h

theorem ops_keep (V0 : Valuation τ sig (Elt F)) (r : Ref sig .tc) (hG : r ∉ partG_W) (h1 : r ∉ partL1_W) (h2 : r ∉ partL2_W) (h3 : r ∉ partL3_W)
    (hT : r ∉ partT_W) : after (ops : List (HloOp τ sig (Elt F))) V0 (Proc.devRef .tc r) = V0 (Proc.devRef .tc r) := by
  rw [after_ops]
  exact (valT_keep V0 r hT).trans ((valL3_keep V0 r h3).trans ((valL2_keep V0 r h2).trans ((valL1_keep V0 r h1).trans
    (valG_keep V0 r hG))))

set_option maxRecDepth 8192 in
set_option maxHeartbeats 4000000 in
theorem valG_v3 (V0 : Valuation τ sig (Elt F)) : valG V0 (no_index (Proc.devRef .tc main_v3)) = rowV (V0 (Proc.devRef .tc main_arg1)) := by
  unfold valG
  simp only [partG]
  after_results_simp
  all_goals rfl
set_option maxRecDepth 8192 in
set_option maxHeartbeats 4000000 in
theorem valG_v6 (V0 : Valuation τ sig (Elt F)) : valG V0 (no_index (Proc.devRef .tc main_v6)) = colV (V0 (Proc.devRef .tc main_arg1)) := by
  unfold valG
  simp only [partG]
  after_results_simp
  all_goals rfl
set_option maxRecDepth 8192 in
set_option maxHeartbeats 4000000 in
theorem valG_v29 (V0 : Valuation τ sig (Elt F)) : valG V0 (no_index (Proc.devRef .tc main_v29)) = normE (F := F) (V0 (Proc.devRef .tc main_arg1)) := by
  unfold valG
  simp only [partG]
  after_results_simp
  all_goals rfl
theorem valG_arg0 (V0 : Valuation τ sig (Elt F)) : valG V0 (no_index (Proc.devRef .tc main_arg0)) = V0 (Proc.devRef .tc main_arg0) := valG_keep V0 main_arg0 (by decide)
theorem valG_arg2 (V0 : Valuation τ sig (Elt F)) : valG V0 (no_index (Proc.devRef .tc main_arg2)) = V0 (Proc.devRef .tc main_arg2) := valG_keep V0 main_arg2 (by decide)
theorem valG_arg3 (V0 : Valuation τ sig (Elt F)) : valG V0 (no_index (Proc.devRef .tc main_arg3)) = V0 (Proc.devRef .tc main_arg3) := valG_keep V0 main_arg3 (by decide)
theorem valG_arg4 (V0 : Valuation τ sig (Elt F)) : valG V0 (no_index (Proc.devRef .tc main_arg4)) = V0 (Proc.devRef .tc main_arg4) := valG_keep V0 main_arg4 (by decide)
theorem valG_arg5 (V0 : Valuation τ sig (Elt F)) : valG V0 (no_index (Proc.devRef .tc main_arg5)) = V0 (Proc.devRef .tc main_arg5) := valG_keep V0 main_arg5 (by decide)
theorem valG_arg6 (V0 : Valuation τ sig (Elt F)) : valG V0 (no_index (Proc.devRef .tc main_arg6)) = V0 (Proc.devRef .tc main_arg6) := valG_keep V0 main_arg6 (by decide)
theorem valG_arg7 (V0 : Valuation τ sig (Elt F)) : valG V0 (no_index (Proc.devRef .tc main_arg7)) = V0 (Proc.devRef .tc main_arg7) := valG_keep V0 main_arg7 (by decide)

set_option maxRecDepth 8192 in
set_option maxHeartbeats 4000000 in
theorem valL1_v47 (V0 : Valuation τ sig (Elt F)) : valL1 V0 (no_index (Proc.devRef .tc main_v47))
    = h1E (F := F) (V0 (Proc.devRef .tc main_arg0)) (V0 (Proc.devRef .tc main_arg1)) (V0 (Proc.devRef .tc main_arg2)) (V0 (Proc.devRef .tc main_arg3)) := by
  unfold valL1
  simp only [partL1]
  after_results_simp
  simp only [valG_v3, valG_v6, valG_v29, valG_arg0, valG_arg2, valG_arg3] <;> rfl
set_option maxRecDepth 8192 in
set_option maxHeartbeats 4000000 in
theorem valL1_v48 (V0 : Valuation τ sig (Elt F)) : valL1 V0 (no_index (Proc.devRef .tc main_v48))
    = linV (h1E (F := F) (V0 (Proc.devRef .tc main_arg0)) (V0 (Proc.devRef .tc main_arg1)) (V0 (Proc.devRef .tc main_arg2)) (V0 (Proc.devRef .tc main_arg3))) (V0 (Proc.devRef .tc main_arg4)) := by
  unfold valL1
  simp only [partL1]
  after_results_simp
  simp only [valG_v3, valG_v6, valG_v29, valG_arg0, valG_arg2, valG_arg3, valG_arg4] <;> rfl
theorem valL1_v3 (V0 : Valuation τ sig (Elt F)) : valL1 V0 (no_index (Proc.devRef .tc main_v3)) = rowV (V0 (Proc.devRef .tc main_arg1)) :=
  (valL1_keep V0 main_v3 (by decide)).trans (valG_v3 V0)
theorem valL1_v6 (V0 : Valuation τ sig (Elt F)) : valL1 V0 (no_index (Proc.devRef .tc main_v6)) = colV (V0 (Proc.devRef .tc main_arg1)) :=
  (valL1_keep V0 main_v6 (by decide)).trans (valG_v6 V0)
theorem valL1_v29 (V0 : Valuation τ sig (Elt F)) : valL1 V0 (no_index (Proc.devRef .tc main_v29)) = normE (F := F) (V0 (Proc.devRef .tc main_arg1)) :=
  (valL1_keep V0 main_v29 (by decide)).trans (valG_v29 V0)
theorem valL1_arg5 (V0 : Valuation τ sig (Elt F)) : valL1 V0 (no_index (Proc.devRef .tc main_arg5)) = V0 (Proc.devRef .tc main_arg5) :=
  (valL1_keep V0 main_arg5 (by decide)).trans (valG_arg5 V0)
theorem valL1_arg6 (V0 : Valuation τ sig (Elt F)) : valL1 V0 (no_index (Proc.devRef .tc main_arg6)) = V0 (Proc.devRef .tc main_arg6) :=
  (valL1_keep V0 main_arg6 (by decide)).trans (valG_arg6 V0)
theorem valL1_arg7 (V0 : Valuation τ sig (Elt F)) : valL1 V0 (no_index (Proc.devRef .tc main_arg7)) = V0 (Proc.devRef .tc main_arg7) :=
  (valL1_keep V0 main_arg7 (by decide)).trans (valG_arg7 V0)

set_option maxRecDepth 8192 in
set_option maxHeartbeats 4000000 in
theorem valL2_v65 (V0 : Valuation τ sig (Elt F)) : valL2 V0 (no_index (Proc.devRef .tc main_v65))
    = h2E (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold valL2
  simp only [partL2]
  after_results_simp
  simp only [valL1_v3, valL1_v6, valL1_v29, valL1_v48, valL1_arg5] <;> rfl
set_option maxRecDepth 8192 in
set_option maxHeartbeats 4000000 in
theorem valL2_v66 (V0 : Valuation τ sig (Elt F)) : valL2 V0 (no_index (Proc.devRef .tc main_v66))
    = linV (h2E (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))) (V0 (Proc.devRef .tc main_arg6)) := by
  unfold valL2
  simp only [partL2]
  after_results_simp
  simp only [valL1_v3, valL1_v6, valL1_v29, valL1_v48, valL1_arg5, valL1_arg6] <;> rfl
theorem valL2_v3 (V0 : Valuation τ sig (Elt F)) : valL2 V0 (no_index (Proc.devRef .tc main_v3)) = rowV (V0 (Proc.devRef .tc main_arg1)) :=
  (valL2_keep V0 main_v3 (by decide)).trans (valL1_v3 V0)
theorem valL2_v6 (V0 : Valuation τ sig (Elt F)) : valL2 V0 (no_index (Proc.devRef .tc main_v6)) = colV (V0 (Proc.devRef .tc main_arg1)) :=
  (valL2_keep V0 main_v6 (by decide)).trans (valL1_v6 V0)
theorem valL2_v29 (V0 : Valuation τ sig (Elt F)) : valL2 V0 (no_index (Proc.devRef .tc main_v29)) = normE (F := F) (V0 (Proc.devRef .tc main_arg1)) :=
  (valL2_keep V0 main_v29 (by decide)).trans (valL1_v29 V0)
theorem valL2_v47 (V0 : Valuation τ sig (Elt F)) : valL2 V0 (no_index (Proc.devRef .tc main_v47))
    = h1E (F := F) (V0 (Proc.devRef .tc main_arg0)) (V0 (Proc.devRef .tc main_arg1)) (V0 (Proc.devRef .tc main_arg2)) (V0 (Proc.devRef .tc main_arg3)) :=
  (valL2_keep V0 main_v47 (by decide)).trans (valL1_v47 V0)
theorem valL2_arg7 (V0 : Valuation τ sig (Elt F)) : valL2 V0 (no_index (Proc.devRef .tc main_arg7)) = V0 (Proc.devRef .tc main_arg7) :=
  (valL2_keep V0 main_arg7 (by decide)).trans (valL1_arg7 V0)

set_option maxRecDepth 8192 in
set_option maxHeartbeats 4000000 in
theorem valL3_v83 (V0 : Valuation τ sig (Elt F)) : valL3 V0 (no_index (Proc.devRef .tc main_v83))
    = h3E (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold valL3
  simp only [partL3]
  after_results_simp
  simp only [valL2_v3, valL2_v6, valL2_v29, valL2_v66, valL2_arg7] <;> rfl
theorem valL3_v47 (V0 : Valuation τ sig (Elt F)) : valL3 V0 (no_index (Proc.devRef .tc main_v47))
    = h1E (F := F) (V0 (Proc.devRef .tc main_arg0)) (V0 (Proc.devRef .tc main_arg1)) (V0 (Proc.devRef .tc main_arg2)) (V0 (Proc.devRef .tc main_arg3)) :=
  (valL3_keep V0 main_v47 (by decide)).trans (valL2_v47 V0)
theorem valL3_v65 (V0 : Valuation τ sig (Elt F)) : valL3 V0 (no_index (Proc.devRef .tc main_v65))
    = h2E (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (valL3_keep V0 main_v65 (by decide)).trans (valL2_v65 V0)

set_option maxRecDepth 8192 in
set_option maxHeartbeats 4000000 in
theorem valT_v87 (V0 : Valuation τ sig (Elt F)) : valT V0 (no_index (Proc.devRef .tc main_v87))
    = outE (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold valT
  simp only [partT]
  after_results_simp
  dsimp only [Matrix.cons_val]
  repeat (first
    | rw [unary_result]
    | (rw [unary_result_ne]; rotate_left; decide))
  rw [valL3_v47, valL3_v65, valL3_v83]
  rfl

theorem after_v87 (m : (ℓ : Loc nD τ sig) → Buf (Elt F) ℓ) (c : Dev nD) :
    after (ops : List (HloOp τ sig (Elt F))) (launchContents m c) (Proc.devRef .tc main_v87) = outE (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_ops]
  exact valT_v87 (launchContents m c)

set_option maxRecDepth 8192 in
set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = outE (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v87).trans (after_v87 m c),
      (h c main_arg0).trans (ops_keep _ main_arg0 (by decide) (by decide) (by decide) (by decide) (by decide)),
      (h c main_arg1).trans (ops_keep _ main_arg1 (by decide) (by decide) (by decide) (by decide) (by decide)),
      (h c main_arg2).trans (ops_keep _ main_arg2 (by decide) (by decide) (by decide) (by decide) (by decide)),
      (h c main_arg3).trans (ops_keep _ main_arg3 (by decide) (by decide) (by decide) (by decide) (by decide)),
      (h c main_arg4).trans (ops_keep _ main_arg4 (by decide) (by decide) (by decide) (by decide) (by decide)),
      (h c main_arg5).trans (ops_keep _ main_arg5 (by decide) (by decide) (by decide) (by decide) (by decide)),
      (h c main_arg6).trans (ops_keep _ main_arg6 (by decide) (by decide) (by decide) (by decide) (by decide)),
      (h c main_arg7).trans (ops_keep _ main_arg7 (by decide) (by decide) (by decide) (by decide) (by decide))⟩)
    (run_seq scopedRefs_eq scopedSems_eq defs main (fun _ => ops) main_eq (fun _ => ops_sub) m ρ)

end Cert.ReferenceIdeal.ValueP

end
-- ==== Proof.Ref.RefVal.lean ====
import proofs.«412367_j16492674417057_1_alg».proof.Proof.Ref.RunH
import proofs.«412367_j16492674417057_1_alg».proof.Proof.Spec
import proofs.«412367_j16492674417057_1_alg».proof.Proof.KI.HostDefs
import Idealize.ShloMosaic.PureOps.Ideal.Laws
import Idealize.ShloMosaic.Lib.ValueIdx
import Idealize.ShloMosaic.Lib.Pipeline.Value

noncomputable section

namespace Cert.ReferenceIdeal.Hand

open Idealize.ShloMosaic Idealize.ShloMosaic.ValueIdx
open Cert.ReferenceIdeal Cert.ReferenceIdeal.Gen Cert.ReferenceIdeal.ValueP

theorem lhs_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl

theorem lhs_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q

theorem rhs_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q

theorem rhs_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Over the extended reals the reference's product contracts the one shared axis: entry (r, j) is the sum over k of h[r, k] · w[k, j]. -/
theorem lin_eq (h : FVec Ideal S50000x128 .f32) (w : FVec Ideal S128x128 .f32) : linV (F := Ideal) h w = Cert.Spec.lin h w := by
  funext i
  unfold linV Cert.Spec.lin
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (n0 := 50000) (n1 := 128) (i 0) k :=
    funext fun a => Fin.ext (by
      match a with
      | ⟨0, _⟩ => exact lhs_0 _ _
      | ⟨1, _⟩ => exact (lhs_1 _ _).trans hk)
  have er : dot_S50000x128_S128x128_S50000x128_1_0_0_1_n_n.rhsIdx i ((contrEquiv1 dot_S50000x128_S128x128_S50000x128_1_0_0_1_n_n 128 rfl rfl).symm k) = ix2 (n0 := 128) (n1 := 128) k (i 1) :=
    funext fun a => Fin.ext (by
      match a with
      | ⟨0, _⟩ => exact (rhs_0 _ _).trans hk
      | ⟨1, _⟩ => exact rhs_1 _ _)
  rw [el, er]

/-- A bias of 128 channels laid along one row and then down the 50000 rows is read, at (r, j), at j. -/
theorem bias_rows_apply {α : Type} (b : S128.Idx → α) (i : S50000x128.Idx) :
    broadcastInDim S50000x128 ![0, 1] bcast_S1x128_S50000x128_0_1 (broadcastInDim S1x128 ![1] bcast_S128_S1x128_1 b) i
      = b (ix1 (n := 128) (i 1)) := by
  refine (broadcastInDim_apply _ bcast_S1x128_S50000x128_0_1 _ i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ bcast_S128_S1x128_1 b _ (ix1 (n := 128) (i 1)) (fun a => match a with
    | ⟨0, _⟩ => by show (i 1).val = if (128 : Nat) = 1 then 0 else (i 1).val; rw [if_neg (by decide)])

theorem act_eq (a : FVec Ideal S50000x128 .f32) (b : FVec Ideal S128 .f32) : actV (F := Ideal) a b = Cert.Spec.act a b := by
  funext i
  show Ideal.tanh (a i + broadcastInDim S50000x128 ![0, 1] bcast_S1x128_S50000x128_0_1
      (broadcastInDim S1x128 ![1] bcast_S128_S1x128_1 b) i) = Ideal.tanh (a i + b (ix1 (n := 128) (i 1)))
  rw [bias_rows_apply]

variable {F : FTy → Type} [FloatOps F]

/-- The reference's aggregation is the kernel's: the same gathers, products and scatter-additions over the edge list, term for term. -/
theorem agg_eq (ei : IVec S2x800000 32) (hw : FVec F S50000x128 .f32) :
    aggV (rowV ei) (colV ei) (normE (F := F) ei) hw = Cert.KernelIdeal.Hand.aggK (F := F) ei hw := rfl

/-- One layer of the reference is one layer of the specification. -/
theorem layer_eq (ei : IVec S2x800000 32) (h : FVec Ideal S50000x128 .f32) (w : FVec Ideal S128x128 .f32) (b : FVec Ideal S128 .f32) :
    actV (aggV (rowV ei) (colV ei) (normE (F := Ideal) ei) (linV h w)) b
      = Cert.Spec.act (Cert.KernelIdeal.Hand.aggK (F := Ideal) ei (Cert.Spec.lin h w)) b := by
  rw [agg_eq, lin_eq]
  exact act_eq _ _

/-- The reference's result is the three-layer convolution of its arguments. -/
theorem out_gcn (x0 : FVec Ideal S50000x128 .f32) (ei : IVec S2x800000 32) (w0 : FVec Ideal S128x128 .f32) (b0 : FVec Ideal S128 .f32)
    (w1 : FVec Ideal S128x128 .f32) (b1 : FVec Ideal S128 .f32) (w2 : FVec Ideal S128x128 .f32) (b2 : FVec Ideal S128 .f32) :
    outE (F := Ideal) x0 ei w0 b0 w1 b1 w2 b2
      = Cert.Spec.gcn (Cert.KernelIdeal.Hand.aggK (F := Ideal) ei) (Cert.KernelIdeal.Hand.stackK (F := Ideal)) x0 w0 b0 w1 b1 w2 b2 := by
  unfold outE h3E h2E h1E Cert.Spec.gcn
  rw [layer_eq, layer_eq, layer_eq]
  rfl

end Cert.ReferenceIdeal.Hand

end
-- ==== Proof.lean ====
import proofs.«412367_j16492674417057_1_alg».proof.Defs
import proofs.«412367_j16492674417057_1_alg».proof.Proof.Gen.Pre_finite_inputs
import proofs.«412367_j16492674417057_1_alg».proof.Proof.K.Segs
import proofs.«412367_j16492674417057_1_alg».proof.Proof.KI.Segs
import proofs.«412367_j16492674417057_1_alg».proof.Proof.KI.HostVals
import proofs.«412367_j16492674417057_1_alg».proof.Proof.Ref.RefVal
import Idealize.ShloMosaic.Adequacy
import Idealize.ShloMosaic.Init

noncomputable section

namespace Cert.Proof

open Idealize.ShloMosaic Idealize.ShloMosaic.TcCoe Idealize.SL.Sem

namespace GcnClaims

theorem frame_k : Cert.frame_Kernel := fun m ρ _ => Cert.Kernel.Hand.frame m ρ

theorem frame_ki : Cert.frame_KernelIdeal := fun m ρ _ => Cert.KernelIdeal.Hand.frame m ρ

/-- The reference's run also says what its result holds; the frame keeps only that the arguments are unchanged. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both results are the three-layer convolution `Spec.gcn (aggK ei) stackK` of arguments that agree; the precondition keeps the kernel's gathered indices in range. -/
theorem algebraic : Cert.algebraic_KernelIdeal_ReferenceIdeal := by
  intro m ρ m' ρ' hpre hagree
  refine ⟨fun c => Cert.KernelIdeal.Hand.W17 (F := Ideal) m ρ c (Proc.devRef .tc Cert.KernelIdeal.main_v61),
    Cert.KernelIdeal.Hand.result_v61 (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  refine ((Cert.ReferenceIdeal.Hand.out_gcn _ _ _ _ _ _ _ _).trans ?_).trans
    (Cert.KernelIdeal.Hand.kernel_result m ρ c (Cert.KernelIdeal.Hand.rows_of_pre m hpre c)).symm
  rw [h0, h1, h2, h3, h4, h5, h6, h7]

end GcnClaims

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩

end Cert.Proof

end
